-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S1 .f32) (main_v63 : IVec S_ 1) (main_v67 : IVec S_ 1) : IVec S_ 1 :=
  let main_v68 : IVec S_ 1 := andi main_v63 main_v67
  let main_v69 : FVec F S1 .f32 := Host.absf main_arg17
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg14 : FVec F S128x64 .f32) (main_arg15 : FVec F S64 .f32) (main_arg16 : FVec F S64x1 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg14
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg16
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg17 main_v63 main_v67

def fn_part2 {F : FTy → Type} [FloatOps F] (main_arg10 : FVec F S512x256 .f32) (main_arg11 : FVec F S256 .f32) (main_arg12 : FVec F S256x128 .f32) (main_arg13 : FVec F S128 .f32) (main_arg14 : FVec F S128x64 .f32) (main_arg15 : FVec F S64 .f32) (main_arg16 : FVec F S64x1 .f32) (main_arg17 : FVec F S1 .f32) (main_v33 : IVec S_ 1) : IVec S_ 1 :=
  let main_v34 : FVec F S512x256 .f32 := Host.absf main_arg10
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg12
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_v48 main_v49 main_v50

def fn_part1 {F : FTy → Type} [FloatOps F] (main_arg7 : FVec F S128 .f32) (main_arg8 : FVec F S128x512 .f32) (main_arg9 : FVec F S512 .f32) (main_arg10 : FVec F S512x256 .f32) (main_arg11 : FVec F S256 .f32) (main_arg12 : FVec F S256x128 .f32) (main_arg13 : FVec F S128 .f32) (main_arg14 : FVec F S128x64 .f32) (main_arg15 : FVec F S64 .f32) (main_arg16 : FVec F S64x1 .f32) (main_arg17 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x512 .f32 := Host.absf main_arg8
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512 .f32 := Host.absf main_arg9
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S100000x128 .f32) (main_arg1 : IVec S600000 32) (main_arg2 : IVec S600000 32) (main_arg3 : IVec S100000 32) (main_arg4 : FVec F S128x64 .f32) (main_arg5 : FVec F S64 .f32) (main_arg6 : FVec F S64x128 .f32) (main_arg7 : FVec F S128 .f32) (main_arg8 : FVec F S128x512 .f32) (main_arg9 : FVec F S512 .f32) (main_arg10 : FVec F S512x256 .f32) (main_arg11 : FVec F S256 .f32) (main_arg12 : FVec F S256x128 .f32) (main_arg13 : FVec F S128 .f32) (main_arg14 : FVec F S128x64 .f32) (main_arg15 : FVec F S64 .f32) (main_arg16 : FVec F S64x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg6
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S600000 : Shape := ⟨1, ![600000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S64x1 : Shape := ⟨2, ![64, 1]⟩
abbrev S1 : Shape := ⟨1, ![1]⟩
abbrev S700000 : Shape := ⟨1, ![700000]⟩
abbrev S_ : Shape := ⟨0, ![]⟩
abbrev S700000x1 : Shape := ⟨2, ![700000, 1]⟩
abbrev S100000x64 : Shape := ⟨2, ![100000, 64]⟩
abbrev S5000x128 : Shape := ⟨2, ![5000, 128]⟩
abbrev S5000x64 : Shape := ⟨2, ![5000, 64]⟩
abbrev S700000x64 : Shape := ⟨2, ![700000, 64]⟩
abbrev S1x64 : Shape := ⟨2, ![1, 64]⟩
abbrev S700000x128 : Shape := ⟨2, ![700000, 128]⟩
abbrev S1x128 : Shape := ⟨2, ![1, 128]⟩
abbrev S100000x1 : Shape := ⟨2, ![100000, 1]⟩
abbrev S512x128 : Shape := ⟨2, ![512, 128]⟩
abbrev S5000x1 : Shape := ⟨2, ![5000, 1]⟩
abbrev S5000x512 : Shape := ⟨2, ![5000, 512]⟩
abbrev S512x5000 : Shape := ⟨2, ![512, 5000]⟩
abbrev S512x1 : Shape := ⟨2, ![512, 1]⟩
abbrev S1x512 : Shape := ⟨2, ![1, 512]⟩
abbrev S1x256 : Shape := ⟨2, ![1, 256]⟩
abbrev S1x1 : Shape := ⟨2, ![1, 1]⟩
abbrev S512x512 : Shape := ⟨2, ![512, 512]⟩
abbrev S512x64 : Shape := ⟨2, ![512, 64]⟩

abbrev nBuf : Space → Nat
  | .hbm => 112
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S100000, .i32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S100000, .i32⟩
  | .hbm, ⟨19, _⟩ => ⟨S700000, .i32⟩
  | .hbm, ⟨20, _⟩ => ⟨S700000, .i32⟩
  | .hbm, ⟨21, _⟩ => ⟨S_, .f32⟩
  | .hbm, ⟨22, _⟩ => ⟨S700000, .f32⟩
  | .hbm, ⟨23, _⟩ => ⟨S_, .f32⟩
  | .hbm, ⟨24, _⟩ => ⟨S100000, .f32⟩
  | .hbm, ⟨25, _⟩ => ⟨S700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S700000, .i32⟩
  | .hbm, ⟨37, _⟩ => ⟨S700000, .i1⟩
  | .hbm, ⟨38, _⟩ => ⟨S_, .i32⟩
  | .hbm, ⟨39, _⟩ => ⟨S700000, .i32⟩
  | .hbm, ⟨40, _⟩ => ⟨S700000, .i32⟩
  | .hbm, ⟨41, _⟩ => ⟨S700000, .i32⟩
  | .hbm, ⟨42, _⟩ => ⟨S700000x1, .i32⟩
  | .hbm, ⟨43, _⟩ => ⟨S700000, .f32⟩
  | .hbm, ⟨44, _⟩ => ⟨S_, .i32⟩
  | .hbm, ⟨45, _⟩ => ⟨S700000, .i32⟩
  | .hbm, ⟨46, _⟩ => ⟨S700000, .i1⟩
  | .hbm, ⟨47, _⟩ => ⟨S_, .i32⟩
  | .hbm, ⟨48, _⟩ => ⟨S700000, .i32⟩
  | .hbm, ⟨49, _⟩ => ⟨S700000, .i32⟩
  | .hbm, ⟨50, _⟩ => ⟨S700000, .i32⟩
  | .hbm, ⟨51, _⟩ => ⟨S700000x1, .i32⟩
  | .hbm, ⟨52, _⟩ => ⟨S700000, .f32⟩
  | .hbm, ⟨53, _⟩ => ⟨S700000, .f32⟩
  | .hbm, ⟨54, _⟩ => ⟨S100000x64, .f32⟩
  | .hbm, ⟨55, _⟩ => ⟨S_, .i32⟩
  | .hbm, ⟨56, _⟩ => ⟨S700000, .i32⟩
  | .hbm, ⟨57, _⟩ => ⟨S700000, .i1⟩
  | .hbm, ⟨58, _⟩ => ⟨S_, .i32⟩
  | .hbm, ⟨59, _⟩ => ⟨S700000, .i32⟩
  | .hbm, ⟨60, _⟩ => ⟨S700000, .i32⟩
  | .hbm, ⟨61, _⟩ => ⟨S700000, .i32⟩
  | .hbm, ⟨62, _⟩ => ⟨S700000x1, .i32⟩
  | .hbm, ⟨63, _⟩ => ⟨S700000x64, .f32⟩
  | .hbm, ⟨64, _⟩ => ⟨S700000x1, .f32⟩
  | .hbm, ⟨65, _⟩ => ⟨S700000x64, .f32⟩
  | .hbm, ⟨66, _⟩ => ⟨S700000x64, .f32⟩
  | .hbm, ⟨67, _⟩ => ⟨S_, .f32⟩
  | .hbm, ⟨68, _⟩ => ⟨S100000x64, .f32⟩
  | .hbm, ⟨69, _⟩ => ⟨S700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x128, .f32⟩
  | .hbm, ⟨74, _⟩ => ⟨S_, .i32⟩
  | .hbm, ⟨75, _⟩ => ⟨S700000, .i32⟩
  | .hbm, ⟨76, _⟩ => ⟨S700000, .i1⟩
  | .hbm, ⟨77, _⟩ => ⟨S_, .i32⟩
  | .hbm, ⟨78, _⟩ => ⟨S700000, .i32⟩
  | .hbm, ⟨79, _⟩ => ⟨S700000, .i32⟩
  | .hbm, ⟨80, _⟩ => ⟨S700000, .i32⟩
  | .hbm, ⟨81, _⟩ => ⟨S700000x1, .i32⟩
  | .hbm, ⟨82, _⟩ => ⟨S700000x128, .f32⟩
  | .hbm, ⟨83, _⟩ => ⟨S700000x1, .f32⟩
  | .hbm, ⟨84, _⟩ => ⟨S700000x128, .f32⟩
  | .hbm, ⟨85, _⟩ => ⟨S700000x128, .f32⟩
  | .hbm, ⟨86, _⟩ => ⟨S_, .f32⟩
  | .hbm, ⟨87, _⟩ => ⟨S100000x128, .f32⟩
  | .hbm, ⟨88, _⟩ => ⟨S700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x1, .i32⟩
  | .hbm, ⟨93, _⟩ => ⟨S512x128, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S512, .f32⟩
  | .hbm, ⟨98, _⟩ => ⟨S100000x1, .i32⟩
  | .hbm, ⟨99, _⟩ => ⟨S512, .f32⟩
  | .hbm, ⟨100, _⟩ => ⟨S_, .f32⟩
  | .hbm, ⟨101, _⟩ => ⟨S512, .f32⟩
  | .hbm, ⟨102, _⟩ => ⟨S512, .f32⟩
  | .hbm, ⟨103, _⟩ => ⟨S512x1, .f32⟩
  | .hbm, ⟨104, _⟩ => ⟨S512x128, .f32⟩
  | .hbm, ⟨105, _⟩ => ⟨S512x128, .f32⟩
  | .hbm, ⟨106, _⟩ => ⟨S1x512, .f32⟩
  | .hbm, ⟨107, _⟩ => ⟨S1x256, .f32⟩
  | .hbm, ⟨108, _⟩ => ⟨S1x128, .f32⟩
  | .hbm, ⟨109, _⟩ => ⟨S1x64, .f32⟩
  | .hbm, ⟨110, _⟩ => ⟨S1x1, .f32⟩
  | .hbm, ⟨111, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .i32⟩
  | .local _ .vmem, ⟨23, _⟩ => ⟨S5000x1, .i32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S128x512, .f32⟩
  | .local _ .vmem, ⟨28, _⟩ => ⟨S1x512, .f32⟩
  | .local _ .vmem, ⟨29, _⟩ => ⟨S512x256, .f32⟩
  | .local _ .vmem, ⟨30, _⟩ => ⟨S1x256, .f32⟩
  | .local _ .vmem, ⟨31, _⟩ => ⟨S256x128, .f32⟩
  | .local _ .vmem, ⟨32, _⟩ => ⟨S1x128, .f32⟩
  | .local _ .vmem, ⟨33, _⟩ => ⟨S128x64, .f32⟩
  | .local _ .vmem, ⟨34, _⟩ => ⟨S1x64, .f32⟩
  | .local _ .vmem, ⟨35, _⟩ => ⟨S64x1, .f32⟩
  | .local _ .vmem, ⟨36, _⟩ => ⟨S1x1, .f32⟩
  | .local _ .vmem, ⟨37, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_9 : Ref sig .tc := ⟨.hbm, 74, rfl⟩
abbrev main_v43 : Ref sig .tc := ⟨.hbm, 75, rfl⟩
abbrev main_v44 : Ref sig .tc := ⟨.hbm, 76, rfl⟩
abbrev main_c_10 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_scratch0 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc5_stg4_0 : Ref sig .tc := ⟨.vmem, 30, rfl⟩
abbrev cc5_stg5_0 : Ref sig .tc := ⟨.vmem, 31, rfl⟩
abbrev cc5_stg6_0 : Ref sig .tc := ⟨.vmem, 32, rfl⟩
abbrev cc5_stg7_0 : Ref sig .tc := ⟨.vmem, 33, rfl⟩
abbrev cc5_stg8_0 : Ref sig .tc := ⟨.vmem, 34, rfl⟩
abbrev cc5_stg9_0 : Ref sig .tc := ⟨.vmem, 35, rfl⟩
abbrev cc5_stg10_0 : Ref sig .tc := ⟨.vmem, 36, rfl⟩
abbrev cc5_stg11_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem1_0 : DmaSem sig := 26
abbrev cc5_sem2_0 : DmaSem sig := 27
abbrev cc5_sem3_0 : DmaSem sig := 28
abbrev cc5_sem4_0 : DmaSem sig := 29
abbrev cc5_sem5_0 : DmaSem sig := 30
abbrev cc5_sem6_0 : DmaSem sig := 31
abbrev cc5_sem7_0 : DmaSem sig := 32
abbrev cc5_sem8_0 : DmaSem sig := 33
abbrev cc5_sem9_0 : DmaSem sig := 34
abbrev cc5_sem10_0 : DmaSem sig := 35
abbrev cc5_sem11_0 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S64x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x1 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S512x1 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

class Facts₀ : Prop where
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S5000x512_d1_w32 : S5000x512.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x512 : S5000x1.Broadcasts S5000x512
  natLt_1_32 : 1 < 32
  transposes_S5000x512_p1_0_S512x5000 : S5000x512.Transposes [1, 0] S512x5000
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S512_S1x512 : S512.ShapeCasts S1x512
  shapeCasts_S256_S1x256 : S256.ShapeCasts S1x256
  shapeCasts_S1_S1x1 : S1.ShapeCasts S1x1
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  broadcasts_S1x128_S512x128 : S1x128.Broadcasts S512x128
  broadcasts_S1x64_S512x64 : S1x64.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x64_S5000x64_1_0_0_1_n_n_wf : DotDims.WF S5000x128 S128x64 S5000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S5000x64_S64x128_S5000x128_1_0_0_1_n_n_wf : DotDims.WF S5000x64 S64x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S512x5000_S5000x128_S512x128_1_0_0_1_n_n_wf : DotDims.WF S512x5000 S5000x128 S512x128 [1] [0] [0] [1] [] []
  scatter_S512_S100000x1_S100000_n_0_0_1_wf : ScatterDims.WF S512 S100000x1 S100000 [] [0] [0] 1
  dot_S512x128_S128x512_S512x512_1_0_0_1_n_n_wf : DotDims.WF S512x128 S128x512 S512x512 [1] [0] [0] [1] [] []
  dot_S512x512_S512x256_S512x256_1_0_0_1_n_n_wf : DotDims.WF S512x512 S512x256 S512x256 [1] [0] [0] [1] [] []
  dot_S512x256_S256x128_S512x128_1_0_0_1_n_n_wf : DotDims.WF S512x256 S256x128 S512x128 [1] [0] [0] [1] [] []
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .i32 = 32 ∨ (Rect.block (s := S100000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x128.size a ≤ S512x128.size a
  hwx4_2 : ∀ i : grid4.Coords, EltTy.bits .f32 = 32 ∨ (Rect.block (s := S512x128) S512x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x512.size a ≤ S128x512.size a
  hwx5_1 : ∀ i : grid5.Coords, EltTy.bits .f32 = 32 ∨ (Rect.block (s := S128x512) S128x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S512x256.size a
  hwx5_3 : ∀ i : grid5.Coords, EltTy.bits .f32 = 32 ∨ (Rect.block (s := S512x256) S512x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x128.size a ≤ S256x128.size a
  hwx5_5 : ∀ i : grid5.Coords, EltTy.bits .f32 = 32 ∨ (Rect.block (s := S256x128) S256x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x64.size a ≤ S128x64.size a
  hwx5_7 : ∀ i : grid5.Coords, EltTy.bits .f32 = 32 ∨ (Rect.block (s := S128x64) S128x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S64x1.size a ≤ S64x1.size a
  hwx5_9 : ∀ i : grid5.Coords, EltTy.bits .f32 = 32 ∨ (Rect.block (s := S64x1) S64x1.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x1.size a ≤ S1x1.size a
  hwx5_10 : ∀ i : grid5.Coords, EltTy.bits .f32 = 32 ∨ (Rect.block (s := S1x1) S1x1.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S512x1.size a ≤ S512x1.size a
  hwx5_11 : ∀ i : grid5.Coords, EltTy.bits .f32 = 32 ∨ (Rect.block (s := S512x1) S512x1.size (cc5_transform_11 i) (hinb5_11 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S512x5000_S5000x128_S512x128_1_0_0_1_n_n : DotDims S512x5000 S5000x128 S512x128 where
  lhsContracting := [1]
  rhsContracting := [0]
  lhsNonContracting := [0]
  rhsNonContracting := [1]
  lhsBatch := []
  rhsBatch := []
  wf := dot_S512x5000_S5000x128_S512x128_1_0_0_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S512x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v68) S512x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg10) S512x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg12) S256x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v71) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg14) S128x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v72) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg16) S64x1.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v73) S1x1.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v74) S512x1.size cc5_transform_11 reads5_11 true true 1 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

class Facts : Prop extends Facts₀ where

variable [Facts]
-- ==== ReferenceIdeal.lean ====
abbrev S100000x128 : Shape := ⟨2, ![100000, 128]⟩
abbrev S600000 : Shape := ⟨1, ![600000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S64x1 : Shape := ⟨2, ![64, 1]⟩
abbrev S1 : Shape := ⟨1, ![1]⟩
abbrev S700000 : Shape := ⟨1, ![700000]⟩
abbrev S_ : Shape := ⟨0, ![]⟩
abbrev S700000x1 : Shape := ⟨2, ![700000, 1]⟩
abbrev S100000x64 : Shape := ⟨2, ![100000, 64]⟩
abbrev S700000x64 : Shape := ⟨2, ![700000, 64]⟩
abbrev S1x64 : Shape := ⟨2, ![1, 64]⟩
abbrev S700000x128 : Shape := ⟨2, ![700000, 128]⟩
abbrev S1x128 : Shape := ⟨2, ![1, 128]⟩
abbrev S100000x1 : Shape := ⟨2, ![100000, 1]⟩
abbrev S512x128 : Shape := ⟨2, ![512, 128]⟩
abbrev S512x1 : Shape := ⟨2, ![512, 1]⟩
abbrev S512x512 : Shape := ⟨2, ![512, 512]⟩
abbrev S1x512 : Shape := ⟨2, ![1, 512]⟩
abbrev S1x256 : Shape := ⟨2, ![1, 256]⟩
abbrev S512x64 : Shape := ⟨2, ![512, 64]⟩
abbrev S1x1 : Shape := ⟨2, ![1, 1]⟩

abbrev nBuf : Space → Nat
  | .hbm => 181
  | .vmem => 0
  | .smem => 0
  | _ => 0

abbrev hbmTy0_0 (i : Nat) : BufTy := match i % 128 with
  | 0 => ⟨S100000x128, .f32⟩
  | 1 => ⟨S600000, .i32⟩
  | 2 => ⟨S600000, .i32⟩
  | 3 => ⟨S100000, .i32⟩
  | 4 => ⟨S128x64, .f32⟩
  | 5 => ⟨S64, .f32⟩
  | 6 => ⟨S64x128, .f32⟩
  | 7 => ⟨S128, .f32⟩
  | 8 => ⟨S128x512, .f32⟩
  | 9 => ⟨S512, .f32⟩
  | 10 => ⟨S512x256, .f32⟩
  | 11 => ⟨S256, .f32⟩
  | 12 => ⟨S256x128, .f32⟩
  | 13 => ⟨S128, .f32⟩
  | 14 => ⟨S128x64, .f32⟩
  | 15 => ⟨S64, .f32⟩
  | 16 => ⟨S64x1, .f32⟩
  | 17 => ⟨S1, .f32⟩
  | 18 => ⟨S100000, .i32⟩
  | 19 => ⟨S700000, .i32⟩
  | 20 => ⟨S700000, .i32⟩
  | 21 => ⟨S_, .f32⟩
  | 22 => ⟨S700000, .f32⟩
  | 23 => ⟨S_, .f32⟩
  | 24 => ⟨S100000, .f32⟩
  | 25 => ⟨S700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S100000x64, .f32⟩
  | 36 => ⟨S_, .i32⟩
  | 37 => ⟨S700000, .i32⟩
  | 38 => ⟨S700000, .i1⟩
  | 39 => ⟨S_, .i32⟩
  | 40 => ⟨S700000, .i32⟩
  | 41 => ⟨S700000, .i32⟩
  | 42 => ⟨S700000, .i32⟩
  | 43 => ⟨S700000x1, .i32⟩
  | 44 => ⟨S700000, .f32⟩
  | 45 => ⟨S_, .i32⟩
  | 46 => ⟨S700000, .i32⟩
  | 47 => ⟨S700000, .i1⟩
  | 48 => ⟨S_, .i32⟩
  | 49 => ⟨S700000, .i32⟩
  | 50 => ⟨S700000, .i32⟩
  | 51 => ⟨S700000, .i32⟩
  | 52 => ⟨S700000x1, .i32⟩
  | 53 => ⟨S700000, .f32⟩
  | 54 => ⟨S700000, .f32⟩
  | 55 => ⟨S700000x1, .f32⟩
  | 56 => ⟨S_, .i32⟩
  | 57 => ⟨S700000, .i32⟩
  | 58 => ⟨S700000, .i1⟩
  | 59 => ⟨S_, .i32⟩
  | 60 => ⟨S700000, .i32⟩
  | 61 => ⟨S700000, .i32⟩
  | 62 => ⟨S700000, .i32⟩
  | 63 => ⟨S700000x1, .i32⟩
  | 64 => ⟨S700000x64, .f32⟩
  | 65 => ⟨S700000x64, .f32⟩
  | 66 => ⟨S700000x64, .f32⟩
  | 67 => ⟨S_, .f32⟩
  | 68 => ⟨S100000x64, .f32⟩
  | 69 => ⟨S700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000, .i32⟩
  | 78 => ⟨S700000, .i32⟩
  | 79 => ⟨S700000, .i32⟩
  | 80 => ⟨S_, .f32⟩
  | 81 => ⟨S700000, .f32⟩
  | 82 => ⟨S_, .f32⟩
  | 83 => ⟨S100000, .f32⟩
  | 84 => ⟨S700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S100000x128, .f32⟩
  | 95 => ⟨S_, .i32⟩
  | 96 => ⟨S700000, .i32⟩
  | 97 => ⟨S700000, .i1⟩
  | 98 => ⟨S_, .i32⟩
  | 99 => ⟨S700000, .i32⟩
  | 100 => ⟨S700000, .i32⟩
  | 101 => ⟨S700000, .i32⟩
  | 102 => ⟨S700000x1, .i32⟩
  | 103 => ⟨S700000, .f32⟩
  | 104 => ⟨S_, .i32⟩
  | 105 => ⟨S700000, .i32⟩
  | 106 => ⟨S700000, .i1⟩
  | 107 => ⟨S_, .i32⟩
  | 108 => ⟨S700000, .i32⟩
  | 109 => ⟨S700000, .i32⟩
  | 110 => ⟨S700000, .i32⟩
  | 111 => ⟨S700000x1, .i32⟩
  | 112 => ⟨S700000, .f32⟩
  | 113 => ⟨S700000, .f32⟩
  | 114 => ⟨S700000x1, .f32⟩
  | 115 => ⟨S_, .i32⟩
  | 116 => ⟨S700000, .i32⟩
  | 117 => ⟨S700000, .i1⟩
  | 118 => ⟨S_, .i32⟩
  | 119 => ⟨S700000, .i32⟩
  | 120 => ⟨S700000, .i32⟩
  | 121 => ⟨S700000, .i32⟩
  | 122 => ⟨S700000x1, .i32⟩
  | 123 => ⟨S700000x128, .f32⟩
  | 124 => ⟨S700000x128, .f32⟩
  | 125 => ⟨S700000x128, .f32⟩
  | 126 => ⟨S_, .f32⟩
  | 127 => ⟨S100000x128, .f32⟩
  | _ => ⟨S100000x128, .f32⟩

abbrev hbmTy0_1 (i : Nat) : BufTy := match i % 128 with
  | 0 => ⟨S700000x1, .i32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S_, .f32⟩
  | 9 => ⟨S100000, .f32⟩
  | 10 => ⟨S_, .f32⟩
  | 11 => ⟨S512, .f32⟩
  | 12 => ⟨S100000x1, .i32⟩
  | 13 => ⟨S512, .f32⟩
  | 14 => ⟨S_, .f32⟩
  | 15 => ⟨S512x128, .f32⟩
  | 16 => ⟨S100000x1, .i32⟩
  | 17 => ⟨S512x128, .f32⟩
  | 18 => ⟨S_, .f32⟩
  | 19 => ⟨S512, .f32⟩
  | 20 => ⟨S512, .f32⟩
  | 21 => ⟨S512x1, .f32⟩
  | 22 => ⟨S512x128, .f32⟩
  | 23 => ⟨S512x128, .f32⟩
  | 24 => ⟨S512x512, .f32⟩
  | 25 => ⟨S1x512, .f32⟩
  | 26 => ⟨S512x512, .f32⟩
  | 27 => ⟨S512x512, .f32⟩
  | 28 => ⟨S512x256, .f32⟩
  | 29 => ⟨S1x256, .f32⟩
  | 30 => ⟨S512x256, .f32⟩
  | 31 => ⟨S512x256, .f32⟩
  | 32 => ⟨S_, .f32⟩
  | 33 => ⟨S512x256, .f32⟩
  | 34 => ⟨S512x256, .f32⟩
  | 35 => ⟨S512x128, .f32⟩
  | 36 => ⟨S1x128, .f32⟩
  | 37 => ⟨S512x128, .f32⟩
  | 38 => ⟨S512x128, .f32⟩
  | 39 => ⟨S_, .f32⟩
  | 40 => ⟨S512x128, .f32⟩
  | 41 => ⟨S512x128, .f32⟩
  | 42 => ⟨S512x64, .f32⟩
  | 43 => ⟨S1x64, .f32⟩
  | 44 => ⟨S512x64, .f32⟩
  | 45 => ⟨S512x64, .f32⟩
  | 46 => ⟨S_, .f32⟩
  | 47 => ⟨S512x64, .f32⟩
  | 48 => ⟨S512x64, .f32⟩
  | 49 => ⟨S512x1, .f32⟩
  | 50 => ⟨S1x1, .f32⟩
  | 51 => ⟨S512x1, .f32⟩
  | 52 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call1_cst : Ref sig .tc := ⟨.hbm, 74, rfl⟩
abbrev main_call1_v0 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_9 : Ref sig .tc := ⟨.hbm, 80, rfl⟩
abbrev main_v47 : Ref sig .tc := ⟨.hbm, 81, rfl⟩
abbrev main_cst_10 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_11 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v54 : Ref sig .tc := ⟨.hbm, 93, rfl⟩
abbrev main_v55 : Ref sig .tc := ⟨.hbm, 94, rfl⟩
abbrev main_c_13 : Ref sig .tc := ⟨.hbm, 95, rfl⟩
abbrev main_v56 : Ref sig .tc := ⟨.hbm, 96, rfl⟩
abbrev main_v57 : Ref sig .tc := ⟨.hbm, 97, rfl⟩
abbrev main_c_14 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_15 : Ref sig .tc := ⟨.hbm, 104, rfl⟩
abbrev main_v63 : Ref sig .tc := ⟨.hbm, 105, rfl⟩
abbrev main_v64 : Ref sig .tc := ⟨.hbm, 106, rfl⟩
abbrev main_c_16 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_17 : Ref sig .tc := ⟨.hbm, 115, rfl⟩
abbrev main_v72 : Ref sig .tc := ⟨.hbm, 116, rfl⟩
abbrev main_v73 : Ref sig .tc := ⟨.hbm, 117, rfl⟩
abbrev main_c_18 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_19 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_call3_cst : Ref sig .tc := ⟨.hbm, 133, rfl⟩
abbrev main_call3_v0 : Ref sig .tc := ⟨.hbm, 134, rfl⟩
abbrev main_v87 : Ref sig .tc := ⟨.hbm, 135, rfl⟩
abbrev main_cst_20 : Ref sig .tc := ⟨.hbm, 136, rfl⟩
abbrev main_v88 : Ref sig .tc := ⟨.hbm, 137, rfl⟩
abbrev main_cst_21 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_22 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_23 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_call4_cst : Ref sig .tc := ⟨.hbm, 160, rfl⟩
abbrev main_call4_v0 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_call5_cst : Ref sig .tc := ⟨.hbm, 167, rfl⟩
abbrev main_call5_v0 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_call6_cst : Ref sig .tc := ⟨.hbm, 174, rfl⟩
abbrev main_call6_v0 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩

abbrev nD : Nat := 1
abbrev τ : Topo := Topo.v7x

variable {F : FTy → Type} [FloatOps F]

class Facts₀ : Prop where
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S1x128_S512x128_0_1 : S1x128.BroadcastsInDim S512x128 (![0, 1] : Fin 2 → Fin S512x128.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S700000x1_S700000_n_0_0_1_wf : ScatterDims.WF S100000 S700000x1 S700000 [] [0] [0] 1
  dot_S100000x128_S128x64_S100000x64_1_0_0_1_n_n_wf : DotDims.WF S100000x128 S128x64 S100000x64 [1] [0] [0] [1] [] []
  gather_S100000_S700000x1_S700000_n_0_n_n_0_1_1_wf : GatherDims.WF S100000 S700000x1 S700000 [] [0] [] [0] [] 1 ![1]
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S100000x64_S64x128_S100000x128_1_0_0_1_n_n_wf : DotDims.WF S100000x64 S64x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x512_S512x512_1_0_0_1_n_n_wf : DotDims.WF S512x128 S128x512 S512x512 [1] [0] [0] [1] [] []
  dot_S512x512_S512x256_S512x256_1_0_0_1_n_n_wf : DotDims.WF S512x512 S512x256 S512x256 [1] [0] [0] [1] [] []
  dot_S512x256_S256x128_S512x128_1_0_0_1_n_n_wf : DotDims.WF S512x256 S256x128 S512x128 [1] [0] [0] [1] [] []
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.K.R0.lean ====
import proofs.«422229_j59227599011891_1_alg».proof.Proof.Gen.Kernel.Launch
import proofs.«422229_j59227599011891_1_alg».proof.Proof.Gen.Kernel.Skeleton
import proofs.«422229_j59227599011891_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

def out0_2 (x0 : Vec F S5000x128 .f32) (x1 : Vec F S128x64 .f32) : Vec F S5000x64 .f32 :=
  View.canon [⟨r0_2, k0_pay1 (View.ld x0 r0_0) (View.ld x1 r0_1)⟩]

theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in

theorem sound_kernel0 (c : Dev nD) (E : Set ℕ) (i : grid0.Coords) (arg0 : Memref sig .tc .vmem S5000x128 .f32) (harg0 : arg0.IsWhole) (arg1 : Memref sig .tc .vmem S128x64 .f32) (harg1 : arg1.IsWhole) (arg2 : Memref sig .tc .vmem S5000x64 .f32) (harg2 : arg2.IsWhole)
    (x0 : Vec F S5000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.R1.lean ====
import proofs.«422229_j59227599011891_1_alg».proof.Proof.Gen.Kernel.Launch
import proofs.«422229_j59227599011891_1_alg».proof.Proof.Gen.Kernel.Skeleton
import proofs.«422229_j59227599011891_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S1x64 := Rect.unit (s := S1x64) ![0, 0] S1x64.size inb_S1x64_S1x64_0_0
abbrev r1_2 : Rect S5000x64 := Rect.unit (s := S5000x64) ![0, 0] S5000x64.size inb_S5000x64_S5000x64_0_0

def out1_2 (x0 : Vec F S5000x64 .f32) (x1 : Vec F S1x64 .f32) : Vec F S5000x64 .f32 :=
  View.canon [⟨r1_2, k1_pay1 (View.ld x0 r1_0) (View.ld x1 r1_1)⟩]

theorem cover1_2 (p0 : Vec F S5000x64 .f32) (y : S5000x64.Idx) :
    ∃ pc ∈ ([⟨r1_2, p0⟩] : List (View.Piece (Elt F) S5000x64 .f32)), y ∈ pc.1.set :=
  View.cover_of_tiled [⟨r1_2, p0⟩] S5000x64.size (by rfl) y

set_option maxHeartbeats 1000000 in

theorem sound_kernel1 (c : Dev nD) (E : Set ℕ) (i : grid1.Coords) (arg0 : Memref sig .tc .vmem S5000x64 .f32) (harg0 : arg0.IsWhole) (arg1 : Memref sig .tc .vmem S1x64 .f32) (harg1 : arg1.IsWhole) (arg2 : Memref sig .tc .vmem S5000x64 .f32) (harg2 : arg2.IsWhole)
    (x0 : Vec F S5000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__biasrelu_kernel i arg0 harg0 arg1 harg1 arg2 harg2) K := by
  simp only [cc1__biasrelu_kernel_eq_skeleton]; unfold cc1__biasrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe
  isplitl [H2]; · iexists _; iexact H2
  iintro ⟨H0, H1, H2⟩
  iframe

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K.R2.lean ====
import proofs.«422229_j59227599011891_1_alg».proof.Proof.Gen.Kernel.Launch
import proofs.«422229_j59227599011891_1_alg».proof.Proof.Gen.Kernel.Skeleton
import proofs.«422229_j59227599011891_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64x128 := Rect.unit (s := S64x128) ![0, 0] S64x128.size inb_S64x128_S64x128_0_0
abbrev r2_2 : Rect S5000x128 := Rect.unit (s := S5000x128) ![0, 0] S5000x128.size inb_S5000x128_S5000x128_0_0

def out2_2 (x0 : Vec F S5000x64 .f32) (x1 : Vec F S64x128 .f32) : Vec F S5000x128 .f32 :=
  View.canon [⟨r2_2, k2_pay1 (View.ld x0 r2_0) (View.ld x1 r2_1)⟩]

theorem cover2_2 (p0 : Vec F S5000x128 .f32) (y : S5000x128.Idx) :
    ∃ pc ∈ ([⟨r2_2, p0⟩] : List (View.Piece (Elt F) S5000x128 .f32)), y ∈ pc.1.set :=
  View.cover_of_tiled [⟨r2_2, p0⟩] S5000x128.size (by rfl) y

set_option maxHeartbeats 1000000 in

theorem sound_kernel2 (c : Dev nD) (E : Set ℕ) (i : grid2.Coords) (arg0 : Memref sig .tc .vmem S5000x64 .f32) (harg0 : arg0.IsWhole) (arg1 : Memref sig .tc .vmem S64x128 .f32) (harg1 : arg1.IsWhole) (arg2 : Memref sig .tc .vmem S5000x128 .f32) (harg2 : arg2.IsWhole)
    (x0 : Vec F S5000x64 .f32) (x1 : Vec F S64x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.R3.lean ====
import proofs.«422229_j59227599011891_1_alg».proof.Proof.Gen.Kernel.Launch
import proofs.«422229_j59227599011891_1_alg».proof.Proof.Gen.Kernel.Skeleton
import proofs.«422229_j59227599011891_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S5000x128 := Rect.unit (s := S5000x128) ![0, 0] S5000x128.size inb_S5000x128_S5000x128_0_0

def out3_2 (x0 : Vec F S5000x128 .f32) (x1 : Vec F S1x128 .f32) : Vec F S5000x128 .f32 :=
  View.canon [⟨r3_2, k3_pay1 (View.ld x0 r3_0) (View.ld x1 r3_1)⟩]

theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

set_option maxHeartbeats 1000000 in

theorem sound_kernel3 (c : Dev nD) (E : Set ℕ) (i : grid3.Coords) (arg0 : Memref sig .tc .vmem S5000x128 .f32) (harg0 : arg0.IsWhole) (arg1 : Memref sig .tc .vmem S1x128 .f32) (harg1 : arg1.IsWhole) (arg2 : Memref sig .tc .vmem S5000x128 .f32) (harg2 : arg2.IsWhole)
    (x0 : Vec F S5000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__biasrelu_kernel i arg0 harg0 arg1 harg1 arg2 harg2) K := by
  simp only [cc3__biasrelu_kernel_eq_skeleton]; unfold cc3__biasrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.K.R4.lean ====
import proofs.«422229_j59227599011891_1_alg».proof.Proof.Gen.Kernel.Launch
import proofs.«422229_j59227599011891_1_alg».proof.Proof.Gen.Kernel.Skeleton
import proofs.«422229_j59227599011891_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S5000x1 := Rect.unit (s := S5000x1) ![0, 0] S5000x1.size inb_S5000x1_S5000x1_0_0
abbrev r4_s : Rect S512x128 := Rect.unit (s := S512x128) ![0, 0] S512x128.size inb_S512x128_S512x128_0_0

def step4 (h : Vec F S5000x128 .f32) (ids : Vec F S5000x1 .i32) (s : Vec F S512x128 .f32) : Vec F S512x128 .f32 :=
  k4_pay2 (View.ld ids r4_1) (View.ld h r4_0) s

def acc4 (c : Dev nD) : (n : ℕ) → n < cfg4.N → Vec F S512x128 .f32
  | 0, hn => step4 (iblk4 V c 0 ⟨0, hn⟩) (iblk4 V c 1 ⟨0, hn⟩) (k4_pay1 (F := F))
  | n + 1, hn => step4 (iblk4 V c 0 ⟨n + 1, hn⟩) (iblk4 V c 1 ⟨n + 1, hn⟩) (acc4 c n (Nat.lt_of_succ_lt hn))

theorem acc4_zero (c : Dev nD) (hn : 0 < cfg4.N) :
    acc4 V c 0 hn = k4_pay2 (View.ld (iblk4 V c 1 ⟨0, hn⟩) r4_1) (View.ld (iblk4 V c 0 ⟨0, hn⟩) r4_0) (k4_pay1 (F := F)) := rfl

theorem acc4_succ (c : Dev nD) (n : ℕ) (hn : n + 1 < cfg4.N) :
    acc4 V c (n + 1) hn = k4_pay2 (View.ld (iblk4 V c 1 ⟨n + 1, hn⟩) r4_1) (View.ld (iblk4 V c 0 ⟨n + 1, hn⟩) r4_0)
      (acc4 V c n (Nat.lt_of_succ_lt hn)) := rfl

abbrev scM4 : Memref sig .tc .vmem S512x128 .f32 := Memref.whole cc4_scratch0

def Phi4 (c : Dev nD) : (n : ℕ) → n ≤ cfg4.N → sProp 𝕄
  | 0, _ => Pipeline.ΦA spec4 c
  | n + 1, hn => iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

abbrev cond4 (i : grid4.Coords) : Prop := (Scalar.cmpi .ne (Scalar.extui (Scalar.cmpi .eq (BitVec.ofNat 32 (i 0).val) 0#32)) 0#32) = 1#1

theorem hcond4 : ∀ t : Fin cfg4.N, cond4 (grid4.coords t) ↔ t.val = 0 :=
  (by decide +kernel : ∀ t : Fin grid4.N, cond4 (grid4.coords t) ↔ t.val = 0)

theorem zero_off4 : (![0, 0] : Fin S512x128.rank → ℕ) = fun _ => 0 := by
  funext a; fin_cases a <;> rfl

theorem cover4 {Val : EltTy → Type} (w : r4_s.shape.Idx → Val .f32) (L : List (View.Piece Val S512x128 .f32)) (y : S512x128.Idx) :
    ∃ pc ∈ ((⟨r4_s, w⟩ : View.Piece Val S512x128 .f32) :: L), y ∈ pc.1.set :=
  ⟨⟨r4_s, w⟩, List.mem_cons_self, View.mem_set_unit_zero zero_off4 inb_S512x128_S512x128_0_0 y⟩

theorem read_last4 {κ : Kind} {sp : Space} (v : View sig κ sp S512x128 .f32) (f : v.ty.Contents (Elt F))
    (w : Vec F S512x128 .f32) (L : List (View.Piece (Elt F) S512x128 .f32)) :
    v.read (Elt F) (v.writes (Elt F) f (⟨r4_s, w⟩ :: L)) = w := by
  rw [View.read_writes_eq_canon v f _ (cover4 w L), View.canon_cons_unit_zero zero_off4]

theorem load_last4 {κ : Kind} {sp : Space} (v : View sig κ sp S512x128 .f32)
    (w : Vec F S512x128 .f32) (L : List (View.Piece (Elt F) S512x128 .f32)) :
    v.readCov (⟨r4_s, w⟩ :: L) r4_s.toLoadRect = w := by
  rw [View.readCov_eq_canon_ld v _ r4_s (cover4 w L), View.canon_cons_unit_zero zero_off4, View.ld_unit_zero zero_off4]

theorem load_whole4 {κ : Kind} {sp : Space} (v : View sig κ sp S512x128 .f32) (f : v.ty.Contents (Elt F)) :
    v.readAt (Elt F) r4_s.toLoadRect f = v.read (Elt F) f := by
  rw [View.readAt_eq_ld, View.ld_unit_zero zero_off4]

set_option maxHeartbeats 1000000 in

theorem sound_kernel4_first (c : Dev nD) (E : Set ℕ) (i : grid4.Coords) (arg1 : Memref sig .tc .vmem S5000x128 .f32) (harg1 : arg1.IsWhole) (arg2 : Memref sig .tc .vmem S5000x1 .i32) (harg2 : arg2.IsWhole) (arg3 : Memref sig .tc .vmem S512x128 .f32) (harg3 : arg3.IsWhole) (arg4 : Memref sig .tc .vmem S512x128 .f32) (harg4 : arg4.IsWhole)
    (hc : cond4 i) (x0 : Vec F S5000x128 .f32) (x1 : Vec F S5000x1 .i32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (step4 x0 x1 (k4_pay1 (F := F))) ∗ owns (c : Thread nD τ) arg4 fullShare (step4 x0 x1 (k4_pay1 (F := F)))) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [read_last4, load_last4, load_last4]; rfl
  iexists _; isplitr
  swap; · iexact H3
  ipureintro
  sl_unfold_words
  rw [read_last4, load_last4]; rfl

set_option maxHeartbeats 1000000 in

theorem sound_kernel4_later (c : Dev nD) (E : Set ℕ) (i : grid4.Coords) (arg1 : Memref sig .tc .vmem S5000x128 .f32) (harg1 : arg1.IsWhole) (arg2 : Memref sig .tc .vmem S5000x1 .i32) (harg2 : arg2.IsWhole) (arg3 : Memref sig .tc .vmem S512x128 .f32) (harg3 : arg3.IsWhole) (arg4 : Memref sig .tc .vmem S512x128 .f32) (harg4 : arg4.IsWhole)
    (hc : ¬cond4 i) (x0 : Vec F S5000x128 .f32) (x1 : Vec F S5000x1 .i32) (s : Vec F S512x128 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare s
        ∗ (iprop(owns (c : Thread nD τ) arg1 fullShare x0 ∗ owns (c : Thread nD τ) arg2 fullShare x1 ∗ owns (c : Thread nD τ) arg3 fullShare (step4 x0 x1 s) ∗ owns (c : Thread nD τ) arg4 fullShare (step4 x0 x1 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [read_last4, load_last4, load_whole4]; rfl
  iexists _; isplitr
  swap; · iexact H3
  ipureintro
  sl_unfold_words
  rw [read_last4, load_whole4]; rfl

theorem acc4_at_zero (c : Dev nD) (t : Fin cfg4.N) (hz : t.val = 0) :
    acc4 V c t.val t.isLt = step4 (iblk4 V c 0 t) (iblk4 V c 1 t) (k4_pay1 (F := F)) := by
  obtain ⟨n, hn⟩ := t
  cases n with
  | zero => rfl
  | succ n => exact absurd hz (Nat.succ_ne_zero n)

theorem acc4_at_pos (c : Dev nD) (t : Fin cfg4.N) (hz : t.val ≠ 0) :
    acc4 V c t.val t.isLt = step4 (iblk4 V c 0 t) (iblk4 V c 1 t)
      (acc4 V c (t.val - 1) (Nat.lt_of_le_of_lt (Nat.sub_le _ _) t.isLt)) := by
  obtain ⟨n, hn⟩ := t
  cases n with
  | zero => exact absurd rfl hz
  | succ n => rfl

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r)) := rfl

theorem Phi4_pos (c : Dev nD) (n : ℕ) (h : n ≤ cfg4.N) (hz : n ≠ 0) :
    Phi4 V c n h = iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

theorem PhiA4_eq (c : Dev nD) :
    (Pipeline.ΦA spec4 c : sProp 𝕄)
      = iprop(iprop(iprop(∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

theorem Phi4_castSucc (c : Dev nD) (t : Fin cfg4.N) :
    (dat4 V c).Φ t.castSucc = Phi4 V c t.val (Nat.le_of_lt t.isLt) := by
  dsimp only [dat4]; simp only [Fin.coe_castSucc]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

set_option maxHeartbeats 1600000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    after4_0, after4_1, after4_2]
  rw [show (dat4 V c).Φ t.succ = Phi4 V c (t.val + 1) t.isLt from rfl, Phi4_succ]
  by_cases hz : t.val = 0
  · rw [Phi4_castSucc V c t, Phi4_zero V c _ _ hz, PhiA4_eq, acc4_at_zero V c t hz]
    iintro ⟨⟨⟨HS, Hrest⟩, Hg⟩, Ho, ⟨%d0, H0⟩, ⟨%d1, H1⟩, ⟨%d2, H2⟩⟩
    iapply (sound_kernel4_first c Set.univ _ _ _ _ _ _ _ _ _ ((hcond4 t).mpr hz) (iblk4 V c 0 t) (iblk4 V c 1 t) _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    iexact H2
  · rw [Phi4_castSucc V c t, Phi4_pos V c _ _ hz, acc4_at_pos V c t hz]
    iintro ⟨⟨HS, Hrest, Hg⟩, Ho, ⟨%d0, H0⟩, ⟨%d1, H1⟩, ⟨%d2, H2⟩⟩
    iapply (sound_kernel4_later c Set.univ _ _ _ _ _ _ _ _ _ (fun h => hz ((hcond4 t).mp h)) (iblk4 V c 0 t) (iblk4 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) :
    iprop((∃ r, prngReg c r) ∗ Pipeline.prefHeld (Ix := Unit) (Name := ℕ) (U := UR sig nD τ) (Lvl := ℕ) (pcfgs (F := F) 4).pre c (fun _ => fullShare) ((cfgs 4).toPCfg_adm (Val := Elt F)).1
        ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 (Nat.zero_le _) from rfl, Phi4_zero V c 0 _ rfl]; unfold Pipeline.ΦA
  iintro ⟨Hp, -, Hr⟩
  isplitl [Hr]; · iexact Hr
  iexact Hp

theorem hout4 (c : Dev nD) :
    (dat4 V c).Φ (Fin.last cfg4.N)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec4 c) := by
  rw [Pipeline.ownSems0_none, show (dat4 V c).Φ (Fin.last cfg4.N) = Phi4 V c (Fin.last cfg4.N).val (Nat.le_of_lt_succ (Fin.last cfg4.N).isLt) from rfl,
    Phi4_pos V c _ _ (by rw [Fin.val_last]; have : cfg4.N = 20 := N_4; omega), scopedRest4_split, owns_whole]
  iintro ⟨HS, Hrest, Hg⟩
  isplitl [Hg]; · iexact Hg
  isplitr; · iempintro
  isplitl [HS]
  · iexists _; iexact HS
  iexact Hrest

end Cert.Kernel.Frm

end
-- ==== Proof.K.R5.lean ====
import proofs.«422229_j59227599011891_1_alg».proof.Proof.Gen.Kernel.Launch
import proofs.«422229_j59227599011891_1_alg».proof.Proof.Gen.Kernel.Skeleton
import proofs.«422229_j59227599011891_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S512x128 := Rect.unit (s := S512x128) ![0, 0] S512x128.size inb_S512x128_S512x128_0_0
abbrev r5_1 : Rect S128x512 := Rect.unit (s := S128x512) ![0, 0] S128x512.size inb_S128x512_S128x512_0_0
abbrev r5_2 : Rect S1x512 := Rect.unit (s := S1x512) ![0, 0] S1x512.size inb_S1x512_S1x512_0_0
abbrev r5_3 : Rect S512x256 := Rect.unit (s := S512x256) ![0, 0] S512x256.size inb_S512x256_S512x256_0_0
abbrev r5_4 : Rect S1x256 := Rect.unit (s := S1x256) ![0, 0] S1x256.size inb_S1x256_S1x256_0_0
abbrev r5_5 : Rect S256x128 := Rect.unit (s := S256x128) ![0, 0] S256x128.size inb_S256x128_S256x128_0_0
abbrev r5_6 : Rect S1x128 := Rect.unit (s := S1x128) ![0, 0] S1x128.size inb_S1x128_S1x128_0_0
abbrev r5_7 : Rect S128x64 := Rect.unit (s := S128x64) ![0, 0] S128x64.size inb_S128x64_S128x64_0_0
abbrev r5_8 : Rect S1x64 := Rect.unit (s := S1x64) ![0, 0] S1x64.size inb_S1x64_S1x64_0_0
abbrev r5_9 : Rect S64x1 := Rect.unit (s := S64x1) ![0, 0] S64x1.size inb_S64x1_S64x1_0_0
abbrev r5_10 : Rect S1x1 := Rect.unit (s := S1x1) ![0, 0] S1x1.size inb_S1x1_S1x1_0_0
abbrev r5_11 : Rect S512x1 := Rect.unit (s := S512x1) ![0, 0] S512x1.size inb_S512x1_S512x1_0_0

def out5_11 (x0 : Vec F S512x128 .f32) (x1 : Vec F S128x512 .f32) (x2 : Vec F S1x512 .f32) (x3 : Vec F S512x256 .f32) (x4 : Vec F S1x256 .f32) (x5 : Vec F S256x128 .f32) (x6 : Vec F S1x128 .f32) (x7 : Vec F S128x64 .f32) (x8 : Vec F S1x64 .f32) (x9 : Vec F S64x1 .f32) (x10 : Vec F S1x1 .f32) : Vec F S512x1 .f32 :=
  View.canon [⟨r5_11, k5_pay1 (k5_pay2 (View.ld x0 r5_0) (View.ld x1 r5_1) (View.ld x2 r5_2) (View.ld x3 r5_3) (View.ld x4 r5_4) (View.ld x5 r5_5) (View.ld x6 r5_6) (View.ld x7 r5_7)) (View.ld x8 r5_8) (View.ld x9 r5_9) (View.ld x10 r5_10)⟩]

theorem cover5_11 (p0 : Vec F S512x1 .f32) (y : S512x1.Idx) :
    ∃ pc ∈ ([⟨r5_11, p0⟩] : List (View.Piece (Elt F) S512x1 .f32)), y ∈ pc.1.set :=
  View.cover_of_tiled [⟨r5_11, p0⟩] S512x1.size (by rfl) y

set_option maxHeartbeats 1000000 in

theorem sound_kernel5 (c : Dev nD) (E : Set ℕ) (i : grid5.Coords) (arg0 : Memref sig .tc .vmem S512x128 .f32) (harg0 : arg0.IsWhole) (arg1 : Memref sig .tc .vmem S128x512 .f32) (harg1 : arg1.IsWhole) (arg2 : Memref sig .tc .vmem S1x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x1 .f32) (harg9 : arg9.IsWhole) (arg10 : Memref sig .tc .vmem S1x1 .f32) (harg10 : arg10.IsWhole) (arg11 : Memref sig .tc .vmem S512x1 .f32) (harg11 : arg11.IsWhole)
    (x0 : Vec F S512x128 .f32) (x1 : Vec F S128x512 .f32) (x2 : Vec F S1x512 .f32) (x3 : Vec F S512x256 .f32) (x4 : Vec F S1x256 .f32) (x5 : Vec F S256x128 .f32) (x6 : Vec F S1x128 .f32) (x7 : Vec F S128x64 .f32) (x8 : Vec F S1x64 .f32) (x9 : Vec F S64x1 .f32) (x10 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9 ∗ owns (c : Thread nD τ) arg10 fullShare x10
            ∗ owns (c : Thread nD τ) arg11 fullShare (out5_11 x0 x1 x2 x3 x4 x5 x6 x7 x8 x9 x10)) -∗ K ⟨⟩))
      ⊢ wp frame (wpE (defs₀ (F := F)) Variants.none c none) E (cc5__mlp_kernel i arg0 harg0 arg1 harg1 arg2 harg2 arg3 harg3 arg4 harg4 arg5 harg5 arg6 harg6 arg7 harg7 arg8 harg8 arg9 harg9 arg10 harg10 arg11 harg11) K := by
  simp only [cc5__mlp_kernel_eq_skeleton]; unfold cc5__mlp_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover5_11 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d
theorem before5_5 (c : Dev nD) (t : Fin cfg5.N) (d) : (dat5 V c).before 5 t d = iblk5 V c 5 t :=
  (dat5 V c).before_in_eq_fetched 5 rfl (fun _ => rfl) (fun _ _ _ => rfl) (fun _ => rfl) t d
theorem before5_6 (c : Dev nD) (t : Fin cfg5.N) (d) : (dat5 V c).before 6 t d = iblk5 V c 6 t :=
  (dat5 V c).before_in_eq_fetched 6 rfl (fun _ => rfl) (fun _ _ _ => rfl) (fun _ => rfl) t d
theorem before5_7 (c : Dev nD) (t : Fin cfg5.N) (d) : (dat5 V c).before 7 t d = iblk5 V c 7 t :=
  (dat5 V c).before_in_eq_fetched 7 rfl (fun _ => rfl) (fun _ _ _ => rfl) (fun _ => rfl) t d
theorem before5_8 (c : Dev nD) (t : Fin cfg5.N) (d) : (dat5 V c).before 8 t d = iblk5 V c 8 t :=
  (dat5 V c).before_in_eq_fetched 8 rfl (fun _ => rfl) (fun _ _ _ => rfl) (fun _ => rfl) t d
theorem before5_9 (c : Dev nD) (t : Fin cfg5.N) (d) : (dat5 V c).before 9 t d = iblk5 V c 9 t :=
  (dat5 V c).before_in_eq_fetched 9 rfl (fun _ => rfl) (fun _ _ _ => rfl) (fun _ => rfl) t d
theorem before5_10 (c : Dev nD) (t : Fin cfg5.N) (d) : (dat5 V c).before 10 t d = iblk5 V c 10 t :=
  (dat5 V c).before_in_eq_fetched 10 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel5 c Set.univ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) _)
  iframe
  isplitl [H11]; · iexists _; iexact H11
  iintro ⟨H0, H1, H2, H3, H4, H5, H6, H7, H8, H9, H10, H11⟩
  iframe

theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.K.Run.lean ====
import proofs.«422229_j59227599011891_1_alg».proof.Proof.K.R0
import proofs.«422229_j59227599011891_1_alg».proof.Proof.K.R1
import proofs.«422229_j59227599011891_1_alg».proof.Proof.K.R2
import proofs.«422229_j59227599011891_1_alg».proof.Proof.K.R3
import proofs.«422229_j59227599011891_1_alg».proof.Proof.K.R4
import proofs.«422229_j59227599011891_1_alg».proof.Proof.K.R5
import proofs.«422229_j59227599011891_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev asV (W : Dev nD → Valuation τ sig (Elt F)) : (c : Dev nD) → (b : Ref sig .tc) → Buf (Elt F) ((c : Thread nD τ).loc b) := fun c b => W c b

abbrev W3 : Dev nD → Valuation τ sig (Elt F) := fun c => V3 m c
def W4 (c : Dev nD) : Valuation τ sig (Elt F) := Function.update (W3 m c) main_v26 ((dat0 (asV (W3 m)) c).arrAt 2 cfg0.N)
abbrev W5 : Dev nD → Valuation τ sig (Elt F) := fun c => StableHlo.after hostOps1 (W4 m c)
def W6 (c : Dev nD) : Valuation τ sig (Elt F) := Function.update (W5 m c) main_v41 ((dat1 (asV (W5 m)) c).arrAt 2 cfg1.N)
def W7 (c : Dev nD) : Valuation τ sig (Elt F) := Function.update (W6 m c) main_v42 ((dat2 (asV (W6 m)) c).arrAt 2 cfg2.N)
abbrev W8 : Dev nD → Valuation τ sig (Elt F) := fun c => StableHlo.after hostOps3 (W7 m c)
def W9 (c : Dev nD) : Valuation τ sig (Elt F) := Function.update (W8 m c) main_v57 ((dat3 (asV (W8 m)) c).arrAt 2 cfg3.N)
abbrev W10 : Dev nD → Valuation τ sig (Elt F) := fun c => StableHlo.after hostOps4 (W9 m c)
def W11 (c : Dev nD) : Valuation τ sig (Elt F) := Function.update (W10 m c) main_v59 ((dat4 (asV (W10 m)) c).arrAt 2 cfg4.N)
abbrev W12 : Dev nD → Valuation τ sig (Elt F) := fun c => StableHlo.after hostOps5 (W11 m c)
def W13 (c : Dev nD) : Valuation τ sig (Elt F) := Function.update (W12 m c) main_v74 ((dat5 (asV (W12 m)) c).arrAt 11 cfg5.N)

def outs : Outs (F := F) := fun J r c => match J with
  | 4 => W4 m c r
  | 6 => W6 m c r
  | 7 => W7 m c r
  | 9 => W9 m c r
  | 11 => W11 m c r
  | 13 => W13 m c r
  | _ => W3 m c r

theorem V4_eq (c : Dev nD) : V4 m (outs m) c = W4 m c := by
  show Function.update (V3 m c) main_v26 (W4 m c main_v26) = W4 m c
  unfold W4; rw [Function.update_self]
theorem V5_eq (c : Dev nD) : V5 m (outs m) c = W5 m c := by
  show StableHlo.after hostOps1 (V4 m (outs m) c) = _; rw [V4_eq]
theorem V6_eq (c : Dev nD) : V6 m (outs m) c = W6 m c := by
  show Function.update (V5 m (outs m) c) main_v41 (W6 m c main_v41) = W6 m c
  rw [V5_eq]; unfold W6; rw [Function.update_self]
theorem V7_eq (c : Dev nD) : V7 m (outs m) c = W7 m c := by
  show Function.update (V6 m (outs m) c) main_v42 (W7 m c main_v42) = W7 m c
  rw [V6_eq]; unfold W7; rw [Function.update_self]
theorem V8_eq (c : Dev nD) : V8 m (outs m) c = W8 m c := by
  show StableHlo.after hostOps3 (V7 m (outs m) c) = _; rw [V7_eq]
theorem V9_eq (c : Dev nD) : V9 m (outs m) c = W9 m c := by
  show Function.update (V8 m (outs m) c) main_v57 (W9 m c main_v57) = W9 m c
  rw [V8_eq]; unfold W9; rw [Function.update_self]
theorem V10_eq (c : Dev nD) : V10 m (outs m) c = W10 m c := by
  show StableHlo.after hostOps4 (V9 m (outs m) c) = _; rw [V9_eq]
theorem V11_eq (c : Dev nD) : V11 m (outs m) c = W11 m c := by
  show Function.update (V10 m (outs m) c) main_v59 (W11 m c main_v59) = W11 m c
  rw [V10_eq]; unfold W11; rw [Function.update_self]
theorem V12_eq (c : Dev nD) : V12 m (outs m) c = W12 m c := by
  show StableHlo.after hostOps5 (V11 m (outs m) c) = _; rw [V11_eq]
theorem V13_eq (c : Dev nD) : V13 m (outs m) c = W13 m c := by
  show Function.update (V12 m (outs m) c) main_v74 (W13 m c main_v74) = W13 m c
  rw [V12_eq]; unfold W13; rw [Function.update_self]

theorem W4_self (c : Dev nD) : W4 m c main_v26 = (dat0 (asV (W3 m)) c).arrAt 2 cfg0.N := by
  unfold W4; exact Function.update_self ..
theorem W4_of_ne (c : Dev nD) (b : Ref sig .tc) (hb : b ≠ main_v26) : W4 m c b = W3 m c b := by
  unfold W4; exact Function.update_of_ne (StableHlo.devRef_ne_of_ne hb) ..

-- A window that is only read keeps its array; the written window's array is the one updated entry of the contents.
set_option maxHeartbeats 2000000 in
theorem hF0 (c : Dev nD) (w : Fin cfg0.W) : (dat0 (asV (W3 m)) c).arrAt w cfg0.N = asV (W4 m) c (Pipeline.arrRef spec0 w) :=
  match w with
  | ⟨2, _⟩ => (W4_self m c).symm
  | ⟨0, _⟩ | ⟨1, _⟩ =>
    ((dat0 (asV (W3 m)) c).arrAt_in _ rfl _).trans ((A_eq0 (asV (W3 m)) c _).trans (W4_of_ne m c _ (by decide +revert)).symm)
theorem hrest0 (c : Dev nD) : ∀ b, b ∉ Finset.univ.image (Pipeline.arrRef spec0) → asV (W4 m) c b = asV (W3 m) c b :=
  fun b hb => W4_of_ne m c b fun e => hb (Finset.mem_image.mpr ⟨2, Finset.mem_univ _, e.symm⟩)

theorem W6_self (c : Dev nD) : W6 m c main_v41 = (dat1 (asV (W5 m)) c).arrAt 2 cfg1.N := by
  unfold W6; exact Function.update_self ..
theorem W6_of_ne (c : Dev nD) (b : Ref sig .tc) (hb : b ≠ main_v41) : W6 m c b = W5 m c b := by
  unfold W6; exact Function.update_of_ne (StableHlo.devRef_ne_of_ne hb) ..

set_option maxHeartbeats 2000000 in
theorem hF1 (c : Dev nD) (w : Fin cfg1.W) : (dat1 (asV (W5 m)) c).arrAt w cfg1.N = asV (W6 m) c (Pipeline.arrRef spec1 w) :=
  match w with
  | ⟨2, _⟩ => (W6_self m c).symm
  | ⟨0, _⟩ | ⟨1, _⟩ =>
    ((dat1 (asV (W5 m)) c).arrAt_in _ rfl _).trans ((A_eq1 (asV (W5 m)) c _).trans (W6_of_ne m c _ (by decide +revert)).symm)
theorem hrest1 (c : Dev nD) : ∀ b, b ∉ Finset.univ.image (Pipeline.arrRef spec1) → asV (W6 m) c b = asV (W5 m) c b :=
  fun b hb => W6_of_ne m c b fun e => hb (Finset.mem_image.mpr ⟨2, Finset.mem_univ _, e.symm⟩)

theorem W7_self (c : Dev nD) : W7 m c main_v42 = (dat2 (asV (W6 m)) c).arrAt 2 cfg2.N := by
  unfold W7; exact Function.update_self ..
theorem W7_of_ne (c : Dev nD) (b : Ref sig .tc) (hb : b ≠ main_v42) : W7 m c b = W6 m c b := by
  unfold W7; exact Function.update_of_ne (StableHlo.devRef_ne_of_ne hb) ..

set_option maxHeartbeats 2000000 in
theorem hF2 (c : Dev nD) (w : Fin cfg2.W) : (dat2 (asV (W6 m)) c).arrAt w cfg2.N = asV (W7 m) c (Pipeline.arrRef spec2 w) :=
  match w with
  | ⟨2, _⟩ => (W7_self m c).symm
  | ⟨0, _⟩ | ⟨1, _⟩ =>
    ((dat2 (asV (W6 m)) c).arrAt_in _ rfl _).trans ((A_eq2 (asV (W6 m)) c _).trans (W7_of_ne m c _ (by decide +revert)).symm)
theorem hrest2 (c : Dev nD) : ∀ b, b ∉ Finset.univ.image (Pipeline.arrRef spec2) → asV (W7 m) c b = asV (W6 m) c b :=
  fun b hb => W7_of_ne m c b fun e => hb (Finset.mem_image.mpr ⟨2, Finset.mem_univ _, e.symm⟩)

theorem W9_self (c : Dev nD) : W9 m c main_v57 = (dat3 (asV (W8 m)) c).arrAt 2 cfg3.N := by
  unfold W9; exact Function.update_self ..
theorem W9_of_ne (c : Dev nD) (b : Ref sig .tc) (hb : b ≠ main_v57) : W9 m c b = W8 m c b := by
  unfold W9; exact Function.update_of_ne (StableHlo.devRef_ne_of_ne hb) ..

set_option maxHeartbeats 2000000 in
theorem hF3 (c : Dev nD) (w : Fin cfg3.W) : (dat3 (asV (W8 m)) c).arrAt w cfg3.N = asV (W9 m) c (Pipeline.arrRef spec3 w) :=
  match w with
  | ⟨2, _⟩ => (W9_self m c).symm
  | ⟨0, _⟩ | ⟨1, _⟩ =>
    ((dat3 (asV (W8 m)) c).arrAt_in _ rfl _).trans ((A_eq3 (asV (W8 m)) c _).trans (W9_of_ne m c _ (by decide +revert)).symm)
theorem hrest3 (c : Dev nD) : ∀ b, b ∉ Finset.univ.image (Pipeline.arrRef spec3) → asV (W9 m) c b = asV (W8 m) c b :=
  fun b hb => W9_of_ne m c b fun e => hb (Finset.mem_image.mpr ⟨2, Finset.mem_univ _, e.symm⟩)

theorem W11_self (c : Dev nD) : W11 m c main_v59 = (dat4 (asV (W10 m)) c).arrAt 2 cfg4.N := by
  unfold W11; exact Function.update_self ..
theorem W11_of_ne (c : Dev nD) (b : Ref sig .tc) (hb : b ≠ main_v59) : W11 m c b = W10 m c b := by
  unfold W11; exact Function.update_of_ne (StableHlo.devRef_ne_of_ne hb) ..

set_option maxHeartbeats 2000000 in
theorem hF4 (c : Dev nD) (w : Fin cfg4.W) : (dat4 (asV (W10 m)) c).arrAt w cfg4.N = asV (W11 m) c (Pipeline.arrRef spec4 w) :=
  match w with
  | ⟨2, _⟩ => (W11_self m c).symm
  | ⟨0, _⟩ | ⟨1, _⟩ =>
    ((dat4 (asV (W10 m)) c).arrAt_in _ rfl _).trans ((A_eq4 (asV (W10 m)) c _).trans (W11_of_ne m c _ (by decide +revert)).symm)
theorem hrest4 (c : Dev nD) : ∀ b, b ∉ Finset.univ.image (Pipeline.arrRef spec4) → asV (W11 m) c b = asV (W10 m) c b :=
  fun b hb => W11_of_ne m c b fun e => hb (Finset.mem_image.mpr ⟨2, Finset.mem_univ _, e.symm⟩)

theorem W13_self (c : Dev nD) : W13 m c main_v74 = (dat5 (asV (W12 m)) c).arrAt 11 cfg5.N := by
  unfold W13; exact Function.update_self ..
theorem W13_of_ne (c : Dev nD) (b : Ref sig .tc) (hb : b ≠ main_v74) : W13 m c b = W12 m c b := by
  unfold W13; exact Function.update_of_ne (StableHlo.devRef_ne_of_ne hb) ..

set_option maxHeartbeats 2000000 in
theorem hF5 (c : Dev nD) (w : Fin cfg5.W) : (dat5 (asV (W12 m)) c).arrAt w cfg5.N = asV (W13 m) c (Pipeline.arrRef spec5 w) :=
  match w with
  | ⟨11, _⟩ => (W13_self m c).symm
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ =>
    ((dat5 (asV (W12 m)) c).arrAt_in _ rfl _).trans ((A_eq5 (asV (W12 m)) c _).trans (W13_of_ne m c _ (by decide +revert)).symm)
theorem hrest5 (c : Dev nD) : ∀ b, b ∉ Finset.univ.image (Pipeline.arrRef spec5) → asV (W13 m) c b = asV (W12 m) c b :=
  fun b hb => W13_of_ne m c b fun e => hb (Finset.mem_image.mpr ⟨11, Finset.mem_univ _, e.symm⟩)

def pdats : (p : Fin 6) → (c : Dev nD) → Dat τ (Elt F) Unit ℕ (UR sig nD τ) ℕ (cfgs p) c
  | ⟨0, _⟩ => fun c => dat0 (asV (W3 m)) c
  | ⟨1, _⟩ => fun c => dat1 (asV (W5 m)) c
  | ⟨2, _⟩ => fun c => dat2 (asV (W6 m)) c
  | ⟨3, _⟩ => fun c => dat3 (asV (W8 m)) c
  | ⟨4, _⟩ => fun c => dat4 (asV (W10 m)) c
  | ⟨5, _⟩ => fun c => dat5 (asV (W12 m)) c

abbrev 𝒱ₕ : Variants := Variants.none

abbrev Lh : GSem nD τ sig → Finset Unit := fun _ => ∅
abbrev lvh : GSem nD τ sig → Unit → ℕ := fun _ _ => 0

abbrev Rr (c : Dev nD) : sProp 𝕄 := iprop((∃ r, prngReg c r) ∗ ∃ W, owes (c : Thread nD τ) (0 : CellTallies nD τ sig Unit) W)

set_option backward.isDefEq.respectTransparency.types false in

def reg0 : Pipeline.RegionSeg (pcfgs (F := F)) adm (pdats m) () defs₀ 𝒱ₕ Lh lvh 0 where
  win := launch0.win.to₀
  block_pos := launch0.block_pos
  stage_whole := launch0.stage_whole
  K := PEmpty
  osem k := k.elim
  ho := Pipeline.OwnSemFacts.none _
  hbody c := (body_obligation0 (asV (W3 m)) c).loose
  hwaits := Pipeline.hwaits_of_owed_zero _ _ _ _ Lh lvh 0 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec0 c (asV (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (asV (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (asV (W3 m) c) (asV (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱ₕ Lh lvh 1 where
  win := launch1.win.to₀
  block_pos := launch1.block_pos
  stage_whole := launch1.stage_whole
  K := PEmpty
  osem k := k.elim
  ho := Pipeline.OwnSemFacts.none _
  hbody c := (body_obligation1 (asV (W5 m)) c).loose
  hwaits := Pipeline.hwaits_of_owed_zero _ _ _ _ Lh lvh 1 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec1 c (asV (W5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (asV (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (asV (W5 m) c) (asV (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱ₕ Lh lvh 2 where
  win := launch2.win.to₀
  block_pos := launch2.block_pos
  stage_whole := launch2.stage_whole
  K := PEmpty
  osem k := k.elim
  ho := Pipeline.OwnSemFacts.none _
  hbody c := (body_obligation2 (asV (W6 m)) c).loose
  hwaits := Pipeline.hwaits_of_owed_zero _ _ _ _ Lh lvh 2 fun _ _ => rfl
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec2 c (asV (W6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (asV (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (asV (W6 m) c) (asV (W7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m) () defs₀ 𝒱ₕ Lh lvh 3 where
  win := launch3.win.to₀
  block_pos := launch3.block_pos
  stage_whole := launch3.stage_whole
  K := PEmpty
  osem k := k.elim
  ho := Pipeline.OwnSemFacts.none _
  hbody c := (body_obligation3 (asV (W8 m)) c).loose
  hwaits := Pipeline.hwaits_of_owed_zero _ _ _ _ Lh lvh 3 fun _ _ => rfl
  pre c := iprop(StableHlo.held (c : Thread nD τ) (Pipeline.ucRefs τ sig) (W8 m c) ∗ Rr c)
  post c := iprop(StableHlo.held (c : Thread nD τ) (Pipeline.ucRefs τ sig) (W9 m c) ∗ Rr c)
  X c := iprop(∃ r, prngReg c r)
  Y c := iprop(∃ r, prngReg c r)
  Z c := Pipeline.unscopedRest (Ix := Unit) (Name := ℕ) (U := UR sig nD τ) (Lvl := ℕ) spec3 c (asV (W8 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (asV (W8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (asV (W8 m) c) (asV (W9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m) () defs₀ 𝒱ₕ Lh lvh 4 where
  win := launch4.win.to₀
  block_pos := launch4.block_pos
  stage_whole := launch4.stage_whole
  K := PEmpty
  osem k := k.elim
  ho := Pipeline.OwnSemFacts.none _
  hbody c := (body_obligation4 (asV (W10 m)) c).loose
  hwaits := Pipeline.hwaits_of_owed_zero _ _ _ _ Lh lvh 4 fun _ _ => rfl
  pre c := iprop(StableHlo.held (c : Thread nD τ) (Pipeline.ucRefs τ sig) (W10 m c) ∗ Rr c)
  post c := iprop(StableHlo.held (c : Thread nD τ) (Pipeline.ucRefs τ sig) (W11 m c) ∗ Rr c)
  X c := iprop(∃ r, prngReg c r)
  Y c := iprop(∃ r, prngReg c r)
  Z c := Pipeline.unscopedRest (Ix := Unit) (Name := ℕ) (U := UR sig nD τ) (Lvl := ℕ) spec4 c (asV (W10 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (asV (W10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact hin4 (asV (W10 m)) c
  hout c := by
    exact hout4 (asV (W10 m)) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (asV (W10 m) c) (asV (W11 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m) () defs₀ 𝒱ₕ Lh lvh 5 where
  win := launch5.win.to₀
  block_pos := launch5.block_pos
  stage_whole := launch5.stage_whole
  K := PEmpty
  osem k := k.elim
  ho := Pipeline.OwnSemFacts.none _
  hbody c := (body_obligation5 (asV (W12 m)) c).loose
  hwaits := Pipeline.hwaits_of_owed_zero _ _ _ _ Lh lvh 5 fun _ _ => rfl
  pre c := iprop(StableHlo.held (c : Thread nD τ) (Pipeline.ucRefs τ sig) (W12 m c) ∗ Rr c)
  post c := iprop(StableHlo.held (c : Thread nD τ) (Pipeline.ucRefs τ sig) (W13 m c) ∗ Rr c)
  X c := iprop(∃ r, prngReg c r)
  Y c := iprop(∃ r, prngReg c r)
  Z c := Pipeline.unscopedRest (Ix := Unit) (Name := ℕ) (U := UR sig nD τ) (Lvl := ℕ) spec5 c (asV (W12 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (asV (W12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (asV (W12 m) c) (asV (W13 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem post0_host (c : Dev nD) : (iprop(StableHlo.held (c : Thread nD τ) (Pipeline.ucRefs τ sig) (W4 m c) ∗ Rr c) : sProp 𝕄) ⊢ iprop(StableHlo.held (c : Thread nD τ) (Pipeline.ucRefs τ sig) (V4 m (outs m) c) ∗ Rr c) := by rw [V4_eq m c]
theorem post2_host (c : Dev nD) : (iprop(StableHlo.held (c : Thread nD τ) (Pipeline.ucRefs τ sig) (W7 m c) ∗ Rr c) : sProp 𝕄) ⊢ iprop(StableHlo.held (c : Thread nD τ) (Pipeline.ucRefs τ sig) (V7 m (outs m) c) ∗ Rr c) := by rw [V7_eq m c]
theorem post3_host (c : Dev nD) : (iprop(StableHlo.held (c : Thread nD τ) (Pipeline.ucRefs τ sig) (W9 m c) ∗ Rr c) : sProp 𝕄) ⊢ iprop(StableHlo.held (c : Thread nD τ) (Pipeline.ucRefs τ sig) (V9 m (outs m) c) ∗ Rr c) := by rw [V9_eq m c]
theorem post4_host (c : Dev nD) : (iprop(StableHlo.held (c : Thread nD τ) (Pipeline.ucRefs τ sig) (W11 m c) ∗ Rr c) : sProp 𝕄) ⊢ iprop(StableHlo.held (c : Thread nD τ) (Pipeline.ucRefs τ sig) (V11 m (outs m) c) ∗ Rr c) := by rw [V11_eq m c]
theorem host_pre1 (c : Dev nD) : (iprop(StableHlo.held (c : Thread nD τ) (Pipeline.ucRefs τ sig) (V5 m (outs m) c) ∗ Rr c) : sProp 𝕄) ⊢ iprop(StableHlo.held (c : Thread nD τ) (Pipeline.ucRefs τ sig) (W5 m c) ∗ Rr c) := by rw [V5_eq m c]
theorem host_pre3 (c : Dev nD) : (iprop(StableHlo.held (c : Thread nD τ) (Pipeline.ucRefs τ sig) (V8 m (outs m) c) ∗ Rr c) : sProp 𝕄) ⊢ iprop(StableHlo.held (c : Thread nD τ) (Pipeline.ucRefs τ sig) (W8 m c) ∗ Rr c) := by rw [V8_eq m c]
theorem host_pre4 (c : Dev nD) : (iprop(StableHlo.held (c : Thread nD τ) (Pipeline.ucRefs τ sig) (V10 m (outs m) c) ∗ Rr c) : sProp 𝕄) ⊢ iprop(StableHlo.held (c : Thread nD τ) (Pipeline.ucRefs τ sig) (W10 m c) ∗ Rr c) := by rw [V10_eq m c]
theorem host_pre5 (c : Dev nD) : (iprop(StableHlo.held (c : Thread nD τ) (Pipeline.ucRefs τ sig) (V12 m (outs m) c) ∗ Rr c) : sProp 𝕄) ⊢ iprop(StableHlo.held (c : Thread nD τ) (Pipeline.ucRefs τ sig) (W12 m c) ∗ Rr c) := by rw [V12_eq m c]
theorem last_owes (c : Dev nD) : (iprop(StableHlo.held (c : Thread nD τ) (Pipeline.ucRefs τ sig) (W13 m c) ∗ Rr c) : sProp 𝕄)
    ⊢ iprop(StableHlo.held (c : Thread nD τ) (Pipeline.ucRefs τ sig) (W13 m c) ∗ ∃ W, owes (c : Thread nD τ) (0 : CellTallies nD τ sig Unit) W) := by
  iintro ⟨Hh, -, HO⟩
  isplitl [Hh]; · iexact Hh
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W13 m c b) := by
  refine Pipeline.θ_run_regions_kit_dev (pcfgs (F := F)) adm (pdats m) () cellOf_inj emb₁ defs₀ 𝒱ₕ Lh lvh m ρ main
    (segs m (outs m) 𝒱ₕ Lh lvh (fun _ c => Rr c) () (pdats m) (reg0 m) (reg1 m) (reg2 m) (reg3 m) (reg4 m) (reg5 m))
    (fun c Q => by
      rewrite [main_chain c, Seg.run_eq_chain,
        show ((segs m (outs m) 𝒱ₕ Lh lvh (fun _ c => Rr c) () (pdats m) (reg0 m) (reg1 m) (reg2 m) (reg3 m) (reg4 m) (reg5 m)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (W13 m c))
    (hch := fun c => ⟨.rfl, .rfl, .rfl, .rfl,
      post0_host m c, host_pre1 m c, .rfl,
      post2_host m c, host_pre3 m c,
      post3_host m c, host_pre4 m c,
      post4_host m c, host_pre5 m c,
      last_owes m c⟩)
    (hinit := by
      refine Pipeline.initEach Lh lvh fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨Hh, HSI⟩
      unfold StableHlo.held
      imodintro
      iapply (pointsTo_read_all (Pipeline.ucRefs τ sig) (fun b => (((c : Thread nD τ)).1, b)) (W13 m c) s')
      isplitl [Hh] <;> iassumption)
    (hQ := fun _ h => h)

theorem W13_arg (c : Dev nD) (b : Ref sig .tc) : W13 m c b = V13 m (outs m) c b := (congrFun (V13_eq m c) _).symm

-- Every weakly fair execution ends, fault-free, with the result array at what the last region leaves and the arguments as launched.
theorem run_val (ρ : Dev nD → PrngReg) :
    θ_run defs (onTc (τ := τ) (main (F := F))) ⟨m, fun _ => 0, ρ⟩ (fun r => ∀ c : Dev nD,
      r.2.mem ((c.tc : Thread nD τ).loc main_v74) = W13 m c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨h c _ (mem_uc main_v74 (by decide)), (h c _ (mem_uc main_arg0 (by decide))).trans ((W13_arg m c main_arg0).trans (V13_main_arg0 m (outs m) c)),
    (h c _ (mem_uc main_arg1 (by decide))).trans ((W13_arg m c main_arg1).trans (V13_main_arg1 m (outs m) c)),
    (h c _ (mem_uc main_arg2 (by decide))).trans ((W13_arg m c main_arg2).trans (V13_main_arg2 m (outs m) c)),
    (h c _ (mem_uc main_arg3 (by decide))).trans ((W13_arg m c main_arg3).trans (V13_main_arg3 m (outs m) c)),
    (h c _ (mem_uc main_arg4 (by decide))).trans ((W13_arg m c main_arg4).trans (V13_main_arg4 m (outs m) c)),
    (h c _ (mem_uc main_arg5 (by decide))).trans ((W13_arg m c main_arg5).trans (V13_main_arg5 m (outs m) c)),
    (h c _ (mem_uc main_arg6 (by decide))).trans ((W13_arg m c main_arg6).trans (V13_main_arg6 m (outs m) c)),
    (h c _ (mem_uc main_arg7 (by decide))).trans ((W13_arg m c main_arg7).trans (V13_main_arg7 m (outs m) c)),
    (h c _ (mem_uc main_arg8 (by decide))).trans ((W13_arg m c main_arg8).trans (V13_main_arg8 m (outs m) c)),
    (h c _ (mem_uc main_arg9 (by decide))).trans ((W13_arg m c main_arg9).trans (V13_main_arg9 m (outs m) c)),
    (h c _ (mem_uc main_arg10 (by decide))).trans ((W13_arg m c main_arg10).trans (V13_main_arg10 m (outs m) c)),
    (h c _ (mem_uc main_arg11 (by decide))).trans ((W13_arg m c main_arg11).trans (V13_main_arg11 m (outs m) c)),
    (h c _ (mem_uc main_arg12 (by decide))).trans ((W13_arg m c main_arg12).trans (V13_main_arg12 m (outs m) c)),
    (h c _ (mem_uc main_arg13 (by decide))).trans ((W13_arg m c main_arg13).trans (V13_main_arg13 m (outs m) c)),
    (h c _ (mem_uc main_arg14 (by decide))).trans ((W13_arg m c main_arg14).trans (V13_main_arg14 m (outs m) c)),
    (h c _ (mem_uc main_arg15 (by decide))).trans ((W13_arg m c main_arg15).trans (V13_main_arg15 m (outs m) c)),
    (h c _ (mem_uc main_arg16 (by decide))).trans ((W13_arg m c main_arg16).trans (V13_main_arg16 m (outs m) c)),
    (h c _ (mem_uc main_arg17 (by decide))).trans ((W13_arg m c main_arg17).trans (V13_main_arg17 m (outs m) c))⟩) (run_all m ρ)

end Cert.Kernel.Frm

end
-- ==== Proof.KI.R0.lean ====
import proofs.«422229_j59227599011891_1_alg».proof.Proof.Gen.KernelIdeal.Launch
import proofs.«422229_j59227599011891_1_alg».proof.Proof.Gen.KernelIdeal.Skeleton
import proofs.«422229_j59227599011891_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S5000x64 := Rect.unit (s := S5000x64) ![0, 0] S5000x64.size inb_S5000x64_S5000x64_0_0

def out0_2 (x0 : Vec F S5000x128 .f32) (x1 : Vec F S128x64 .f32) : Vec F S5000x64 .f32 :=
  View.canon [⟨r0_2, k0_pay1 (View.ld x0 r0_0) (View.ld x1 r0_1)⟩]

theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in

theorem sound_kernel0 (c : Dev nD) (E : Set ℕ) (i : grid0.Coords) (arg0 : Memref sig .tc .vmem S5000x128 .f32) (harg0 : arg0.IsWhole) (arg1 : Memref sig .tc .vmem S128x64 .f32) (harg1 : arg1.IsWhole) (arg2 : Memref sig .tc .vmem S5000x64 .f32) (harg2 : arg2.IsWhole)
    (x0 : Vec F S5000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.R1.lean ====
import proofs.«422229_j59227599011891_1_alg».proof.Proof.Gen.KernelIdeal.Launch
import proofs.«422229_j59227599011891_1_alg».proof.Proof.Gen.KernelIdeal.Skeleton
import proofs.«422229_j59227599011891_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S1x64 := Rect.unit (s := S1x64) ![0, 0] S1x64.size inb_S1x64_S1x64_0_0
abbrev r1_2 : Rect S5000x64 := Rect.unit (s := S5000x64) ![0, 0] S5000x64.size inb_S5000x64_S5000x64_0_0

def out1_2 (x0 : Vec F S5000x64 .f32) (x1 : Vec F S1x64 .f32) : Vec F S5000x64 .f32 :=
  View.canon [⟨r1_2, k1_pay1 (View.ld x0 r1_0) (View.ld x1 r1_1)⟩]

theorem cover1_2 (p0 : Vec F S5000x64 .f32) (y : S5000x64.Idx) :
    ∃ pc ∈ ([⟨r1_2, p0⟩] : List (View.Piece (Elt F) S5000x64 .f32)), y ∈ pc.1.set :=
  View.cover_of_tiled [⟨r1_2, p0⟩] S5000x64.size (by rfl) y

set_option maxHeartbeats 1000000 in

theorem sound_kernel1 (c : Dev nD) (E : Set ℕ) (i : grid1.Coords) (arg0 : Memref sig .tc .vmem S5000x64 .f32) (harg0 : arg0.IsWhole) (arg1 : Memref sig .tc .vmem S1x64 .f32) (harg1 : arg1.IsWhole) (arg2 : Memref sig .tc .vmem S5000x64 .f32) (harg2 : arg2.IsWhole)
    (x0 : Vec F S5000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__biasrelu_kernel i arg0 harg0 arg1 harg1 arg2 harg2) K := by
  simp only [cc1__biasrelu_kernel_eq_skeleton]; unfold cc1__biasrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe
  isplitl [H2]; · iexists _; iexact H2
  iintro ⟨H0, H1, H2⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.R2.lean ====
import proofs.«422229_j59227599011891_1_alg».proof.Proof.Gen.KernelIdeal.Launch
import proofs.«422229_j59227599011891_1_alg».proof.Proof.Gen.KernelIdeal.Skeleton
import proofs.«422229_j59227599011891_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64x128 := Rect.unit (s := S64x128) ![0, 0] S64x128.size inb_S64x128_S64x128_0_0
abbrev r2_2 : Rect S5000x128 := Rect.unit (s := S5000x128) ![0, 0] S5000x128.size inb_S5000x128_S5000x128_0_0

def out2_2 (x0 : Vec F S5000x64 .f32) (x1 : Vec F S64x128 .f32) : Vec F S5000x128 .f32 :=
  View.canon [⟨r2_2, k2_pay1 (View.ld x0 r2_0) (View.ld x1 r2_1)⟩]

theorem cover2_2 (p0 : Vec F S5000x128 .f32) (y : S5000x128.Idx) :
    ∃ pc ∈ ([⟨r2_2, p0⟩] : List (View.Piece (Elt F) S5000x128 .f32)), y ∈ pc.1.set :=
  View.cover_of_tiled [⟨r2_2, p0⟩] S5000x128.size (by rfl) y

set_option maxHeartbeats 1000000 in

theorem sound_kernel2 (c : Dev nD) (E : Set ℕ) (i : grid2.Coords) (arg0 : Memref sig .tc .vmem S5000x64 .f32) (harg0 : arg0.IsWhole) (arg1 : Memref sig .tc .vmem S64x128 .f32) (harg1 : arg1.IsWhole) (arg2 : Memref sig .tc .vmem S5000x128 .f32) (harg2 : arg2.IsWhole)
    (x0 : Vec F S5000x64 .f32) (x1 : Vec F S64x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.R3.lean ====
import proofs.«422229_j59227599011891_1_alg».proof.Proof.Gen.KernelIdeal.Launch
import proofs.«422229_j59227599011891_1_alg».proof.Proof.Gen.KernelIdeal.Skeleton
import proofs.«422229_j59227599011891_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S5000x128 := Rect.unit (s := S5000x128) ![0, 0] S5000x128.size inb_S5000x128_S5000x128_0_0

def out3_2 (x0 : Vec F S5000x128 .f32) (x1 : Vec F S1x128 .f32) : Vec F S5000x128 .f32 :=
  View.canon [⟨r3_2, k3_pay1 (View.ld x0 r3_0) (View.ld x1 r3_1)⟩]

theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

set_option maxHeartbeats 1000000 in

theorem sound_kernel3 (c : Dev nD) (E : Set ℕ) (i : grid3.Coords) (arg0 : Memref sig .tc .vmem S5000x128 .f32) (harg0 : arg0.IsWhole) (arg1 : Memref sig .tc .vmem S1x128 .f32) (harg1 : arg1.IsWhole) (arg2 : Memref sig .tc .vmem S5000x128 .f32) (harg2 : arg2.IsWhole)
    (x0 : Vec F S5000x128 .f32) (x1 : Vec F S1x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__biasrelu_kernel i arg0 harg0 arg1 harg1 arg2 harg2) K := by
  simp only [cc3__biasrelu_kernel_eq_skeleton]; unfold cc3__biasrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.R4.lean ====
import proofs.«422229_j59227599011891_1_alg».proof.Proof.Gen.KernelIdeal.Launch
import proofs.«422229_j59227599011891_1_alg».proof.Proof.Gen.KernelIdeal.Skeleton
import proofs.«422229_j59227599011891_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S5000x1 := Rect.unit (s := S5000x1) ![0, 0] S5000x1.size inb_S5000x1_S5000x1_0_0
abbrev r4_s : Rect S512x128 := Rect.unit (s := S512x128) ![0, 0] S512x128.size inb_S512x128_S512x128_0_0

def step4 (h : Vec F S5000x128 .f32) (ids : Vec F S5000x1 .i32) (s : Vec F S512x128 .f32) : Vec F S512x128 .f32 :=
  k4_pay2 (View.ld ids r4_1) (View.ld h r4_0) s

def acc4 (c : Dev nD) : (n : ℕ) → n < cfg4.N → Vec F S512x128 .f32
  | 0, hn => step4 (iblk4 V c 0 ⟨0, hn⟩) (iblk4 V c 1 ⟨0, hn⟩) (k4_pay1 (F := F))
  | n + 1, hn => step4 (iblk4 V c 0 ⟨n + 1, hn⟩) (iblk4 V c 1 ⟨n + 1, hn⟩) (acc4 c n (Nat.lt_of_succ_lt hn))

theorem acc4_zero (c : Dev nD) (hn : 0 < cfg4.N) :
    acc4 V c 0 hn = k4_pay2 (View.ld (iblk4 V c 1 ⟨0, hn⟩) r4_1) (View.ld (iblk4 V c 0 ⟨0, hn⟩) r4_0) (k4_pay1 (F := F)) := rfl

theorem acc4_succ (c : Dev nD) (n : ℕ) (hn : n + 1 < cfg4.N) :
    acc4 V c (n + 1) hn = k4_pay2 (View.ld (iblk4 V c 1 ⟨n + 1, hn⟩) r4_1) (View.ld (iblk4 V c 0 ⟨n + 1, hn⟩) r4_0)
      (acc4 V c n (Nat.lt_of_succ_lt hn)) := rfl

abbrev scM4 : Memref sig .tc .vmem S512x128 .f32 := Memref.whole cc4_scratch0

def Phi4 (c : Dev nD) : (n : ℕ) → n ≤ cfg4.N → sProp 𝕄
  | 0, _ => Pipeline.ΦA spec4 c
  | n + 1, hn => iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

abbrev cond4 (i : grid4.Coords) : Prop := (Scalar.cmpi .ne (Scalar.extui (Scalar.cmpi .eq (BitVec.ofNat 32 (i 0).val) 0#32)) 0#32) = 1#1

theorem hcond4 : ∀ t : Fin cfg4.N, cond4 (grid4.coords t) ↔ t.val = 0 :=
  (by decide +kernel : ∀ t : Fin grid4.N, cond4 (grid4.coords t) ↔ t.val = 0)

theorem zero_off4 : (![0, 0] : Fin S512x128.rank → ℕ) = fun _ => 0 := by
  funext a; fin_cases a <;> rfl

theorem cover4 {Val : EltTy → Type} (w : r4_s.shape.Idx → Val .f32) (L : List (View.Piece Val S512x128 .f32)) (y : S512x128.Idx) :
    ∃ pc ∈ ((⟨r4_s, w⟩ : View.Piece Val S512x128 .f32) :: L), y ∈ pc.1.set :=
  ⟨⟨r4_s, w⟩, List.mem_cons_self, View.mem_set_unit_zero zero_off4 inb_S512x128_S512x128_0_0 y⟩

theorem read_last4 {κ : Kind} {sp : Space} (v : View sig κ sp S512x128 .f32) (f : v.ty.Contents (Elt F))
    (w : Vec F S512x128 .f32) (L : List (View.Piece (Elt F) S512x128 .f32)) :
    v.read (Elt F) (v.writes (Elt F) f (⟨r4_s, w⟩ :: L)) = w := by
  rw [View.read_writes_eq_canon v f _ (cover4 w L), View.canon_cons_unit_zero zero_off4]

theorem load_last4 {κ : Kind} {sp : Space} (v : View sig κ sp S512x128 .f32)
    (w : Vec F S512x128 .f32) (L : List (View.Piece (Elt F) S512x128 .f32)) :
    v.readCov (⟨r4_s, w⟩ :: L) r4_s.toLoadRect = w := by
  rw [View.readCov_eq_canon_ld v _ r4_s (cover4 w L), View.canon_cons_unit_zero zero_off4, View.ld_unit_zero zero_off4]

theorem load_whole4 {κ : Kind} {sp : Space} (v : View sig κ sp S512x128 .f32) (f : v.ty.Contents (Elt F)) :
    v.readAt (Elt F) r4_s.toLoadRect f = v.read (Elt F) f := by
  rw [View.readAt_eq_ld, View.ld_unit_zero zero_off4]

set_option maxHeartbeats 1000000 in

theorem sound_kernel4_first (c : Dev nD) (E : Set ℕ) (i : grid4.Coords) (arg1 : Memref sig .tc .vmem S5000x128 .f32) (harg1 : arg1.IsWhole) (arg2 : Memref sig .tc .vmem S5000x1 .i32) (harg2 : arg2.IsWhole) (arg3 : Memref sig .tc .vmem S512x128 .f32) (harg3 : arg3.IsWhole) (arg4 : Memref sig .tc .vmem S512x128 .f32) (harg4 : arg4.IsWhole)
    (hc : cond4 i) (x0 : Vec F S5000x128 .f32) (x1 : Vec F S5000x1 .i32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (step4 x0 x1 (k4_pay1 (F := F))) ∗ owns (c : Thread nD τ) arg4 fullShare (step4 x0 x1 (k4_pay1 (F := F)))) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [read_last4, load_last4, load_last4]; rfl
  iexists _; isplitr
  swap; · iexact H3
  ipureintro
  sl_unfold_words
  rw [read_last4, load_last4]; rfl

set_option maxHeartbeats 1000000 in

theorem sound_kernel4_later (c : Dev nD) (E : Set ℕ) (i : grid4.Coords) (arg1 : Memref sig .tc .vmem S5000x128 .f32) (harg1 : arg1.IsWhole) (arg2 : Memref sig .tc .vmem S5000x1 .i32) (harg2 : arg2.IsWhole) (arg3 : Memref sig .tc .vmem S512x128 .f32) (harg3 : arg3.IsWhole) (arg4 : Memref sig .tc .vmem S512x128 .f32) (harg4 : arg4.IsWhole)
    (hc : ¬cond4 i) (x0 : Vec F S5000x128 .f32) (x1 : Vec F S5000x1 .i32) (s : Vec F S512x128 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare s
        ∗ (iprop(owns (c : Thread nD τ) arg1 fullShare x0 ∗ owns (c : Thread nD τ) arg2 fullShare x1 ∗ owns (c : Thread nD τ) arg3 fullShare (step4 x0 x1 s) ∗ owns (c : Thread nD τ) arg4 fullShare (step4 x0 x1 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [read_last4, load_last4, load_whole4]; rfl
  iexists _; isplitr
  swap; · iexact H3
  ipureintro
  sl_unfold_words
  rw [read_last4, load_whole4]; rfl

theorem acc4_at_zero (c : Dev nD) (t : Fin cfg4.N) (hz : t.val = 0) :
    acc4 V c t.val t.isLt = step4 (iblk4 V c 0 t) (iblk4 V c 1 t) (k4_pay1 (F := F)) := by
  obtain ⟨n, hn⟩ := t
  cases n with
  | zero => rfl
  | succ n => exact absurd hz (Nat.succ_ne_zero n)

theorem acc4_at_pos (c : Dev nD) (t : Fin cfg4.N) (hz : t.val ≠ 0) :
    acc4 V c t.val t.isLt = step4 (iblk4 V c 0 t) (iblk4 V c 1 t)
      (acc4 V c (t.val - 1) (Nat.lt_of_le_of_lt (Nat.sub_le _ _) t.isLt)) := by
  obtain ⟨n, hn⟩ := t
  cases n with
  | zero => exact absurd rfl hz
  | succ n => rfl

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r)) := rfl

theorem Phi4_pos (c : Dev nD) (n : ℕ) (h : n ≤ cfg4.N) (hz : n ≠ 0) :
    Phi4 V c n h = iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

theorem PhiA4_eq (c : Dev nD) :
    (Pipeline.ΦA spec4 c : sProp 𝕄)
      = iprop(iprop(iprop(∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

theorem Phi4_castSucc (c : Dev nD) (t : Fin cfg4.N) :
    (dat4 V c).Φ t.castSucc = Phi4 V c t.val (Nat.le_of_lt t.isLt) := by
  dsimp only [dat4]; simp only [Fin.coe_castSucc]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

set_option maxHeartbeats 1600000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    after4_0, after4_1, after4_2]
  rw [show (dat4 V c).Φ t.succ = Phi4 V c (t.val + 1) t.isLt from rfl, Phi4_succ]
  by_cases hz : t.val = 0
  · rw [Phi4_castSucc V c t, Phi4_zero V c _ _ hz, PhiA4_eq, acc4_at_zero V c t hz]
    iintro ⟨⟨⟨HS, Hrest⟩, Hg⟩, Ho, ⟨%d0, H0⟩, ⟨%d1, H1⟩, ⟨%d2, H2⟩⟩
    iapply (sound_kernel4_first c Set.univ _ _ _ _ _ _ _ _ _ ((hcond4 t).mpr hz) (iblk4 V c 0 t) (iblk4 V c 1 t) _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    iexact H2
  · rw [Phi4_castSucc V c t, Phi4_pos V c _ _ hz, acc4_at_pos V c t hz]
    iintro ⟨⟨HS, Hrest, Hg⟩, Ho, ⟨%d0, H0⟩, ⟨%d1, H1⟩, ⟨%d2, H2⟩⟩
    iapply (sound_kernel4_later c Set.univ _ _ _ _ _ _ _ _ _ (fun h => hz ((hcond4 t).mp h)) (iblk4 V c 0 t) (iblk4 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) :
    iprop((∃ r, prngReg c r) ∗ Pipeline.prefHeld (Ix := Unit) (Name := ℕ) (U := UR sig nD τ) (Lvl := ℕ) (pcfgs (F := F) 4).pre c (fun _ => fullShare) ((cfgs 4).toPCfg_adm (Val := Elt F)).1
        ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 (Nat.zero_le _) from rfl, Phi4_zero V c 0 _ rfl]; unfold Pipeline.ΦA
  iintro ⟨Hp, -, Hr⟩
  isplitl [Hr]; · iexact Hr
  iexact Hp

theorem hout4 (c : Dev nD) :
    (dat4 V c).Φ (Fin.last cfg4.N)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec4 c) := by
  rw [Pipeline.ownSems0_none, show (dat4 V c).Φ (Fin.last cfg4.N) = Phi4 V c (Fin.last cfg4.N).val (Nat.le_of_lt_succ (Fin.last cfg4.N).isLt) from rfl,
    Phi4_pos V c _ _ (by rw [Fin.val_last]; have : cfg4.N = 20 := N_4; omega), scopedRest4_split, owns_whole]
  iintro ⟨HS, Hrest, Hg⟩
  isplitl [Hg]; · iexact Hg
  isplitr; · iempintro
  isplitl [HS]
  · iexists _; iexact HS
  iexact Hrest

end Cert.KernelIdeal.Frm

end
-- ==== Proof.KI.R5.lean ====
import proofs.«422229_j59227599011891_1_alg».proof.Proof.Gen.KernelIdeal.Launch
import proofs.«422229_j59227599011891_1_alg».proof.Proof.Gen.KernelIdeal.Skeleton
import proofs.«422229_j59227599011891_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S512x128 := Rect.unit (s := S512x128) ![0, 0] S512x128.size inb_S512x128_S512x128_0_0
abbrev r5_1 : Rect S128x512 := Rect.unit (s := S128x512) ![0, 0] S128x512.size inb_S128x512_S128x512_0_0
abbrev r5_2 : Rect S1x512 := Rect.unit (s := S1x512) ![0, 0] S1x512.size inb_S1x512_S1x512_0_0
abbrev r5_3 : Rect S512x256 := Rect.unit (s := S512x256) ![0, 0] S512x256.size inb_S512x256_S512x256_0_0
abbrev r5_4 : Rect S1x256 := Rect.unit (s := S1x256) ![0, 0] S1x256.size inb_S1x256_S1x256_0_0
abbrev r5_5 : Rect S256x128 := Rect.unit (s := S256x128) ![0, 0] S256x128.size inb_S256x128_S256x128_0_0
abbrev r5_6 : Rect S1x128 := Rect.unit (s := S1x128) ![0, 0] S1x128.size inb_S1x128_S1x128_0_0
abbrev r5_7 : Rect S128x64 := Rect.unit (s := S128x64) ![0, 0] S128x64.size inb_S128x64_S128x64_0_0
abbrev r5_8 : Rect S1x64 := Rect.unit (s := S1x64) ![0, 0] S1x64.size inb_S1x64_S1x64_0_0
abbrev r5_9 : Rect S64x1 := Rect.unit (s := S64x1) ![0, 0] S64x1.size inb_S64x1_S64x1_0_0
abbrev r5_10 : Rect S1x1 := Rect.unit (s := S1x1) ![0, 0] S1x1.size inb_S1x1_S1x1_0_0
abbrev r5_11 : Rect S512x1 := Rect.unit (s := S512x1) ![0, 0] S512x1.size inb_S512x1_S512x1_0_0

def out5_11 (x0 : Vec F S512x128 .f32) (x1 : Vec F S128x512 .f32) (x2 : Vec F S1x512 .f32) (x3 : Vec F S512x256 .f32) (x4 : Vec F S1x256 .f32) (x5 : Vec F S256x128 .f32) (x6 : Vec F S1x128 .f32) (x7 : Vec F S128x64 .f32) (x8 : Vec F S1x64 .f32) (x9 : Vec F S64x1 .f32) (x10 : Vec F S1x1 .f32) : Vec F S512x1 .f32 :=
  View.canon [⟨r5_11, k5_pay1 (k5_pay2 (View.ld x0 r5_0) (View.ld x1 r5_1) (View.ld x2 r5_2) (View.ld x3 r5_3) (View.ld x4 r5_4) (View.ld x5 r5_5) (View.ld x6 r5_6) (View.ld x7 r5_7)) (View.ld x8 r5_8) (View.ld x9 r5_9) (View.ld x10 r5_10)⟩]

theorem cover5_11 (p0 : Vec F S512x1 .f32) (y : S512x1.Idx) :
    ∃ pc ∈ ([⟨r5_11, p0⟩] : List (View.Piece (Elt F) S512x1 .f32)), y ∈ pc.1.set :=
  View.cover_of_tiled [⟨r5_11, p0⟩] S512x1.size (by rfl) y

set_option maxHeartbeats 1000000 in

theorem sound_kernel5 (c : Dev nD) (E : Set ℕ) (i : grid5.Coords) (arg0 : Memref sig .tc .vmem S512x128 .f32) (harg0 : arg0.IsWhole) (arg1 : Memref sig .tc .vmem S128x512 .f32) (harg1 : arg1.IsWhole) (arg2 : Memref sig .tc .vmem S1x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x1 .f32) (harg9 : arg9.IsWhole) (arg10 : Memref sig .tc .vmem S1x1 .f32) (harg10 : arg10.IsWhole) (arg11 : Memref sig .tc .vmem S512x1 .f32) (harg11 : arg11.IsWhole)
    (x0 : Vec F S512x128 .f32) (x1 : Vec F S128x512 .f32) (x2 : Vec F S1x512 .f32) (x3 : Vec F S512x256 .f32) (x4 : Vec F S1x256 .f32) (x5 : Vec F S256x128 .f32) (x6 : Vec F S1x128 .f32) (x7 : Vec F S128x64 .f32) (x8 : Vec F S1x64 .f32) (x9 : Vec F S64x1 .f32) (x10 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9 ∗ owns (c : Thread nD τ) arg10 fullShare x10
            ∗ owns (c : Thread nD τ) arg11 fullShare (out5_11 x0 x1 x2 x3 x4 x5 x6 x7 x8 x9 x10)) -∗ K ⟨⟩))
      ⊢ wp frame (wpE (defs₀ (F := F)) Variants.none c none) E (cc5__mlp_kernel i arg0 harg0 arg1 harg1 arg2 harg2 arg3 harg3 arg4 harg4 arg5 harg5 arg6 harg6 arg7 harg7 arg8 harg8 arg9 harg9 arg10 harg10 arg11 harg11) K := by
  simp only [cc5__mlp_kernel_eq_skeleton]; unfold cc5__mlp_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover5_11 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d
theorem before5_5 (c : Dev nD) (t : Fin cfg5.N) (d) : (dat5 V c).before 5 t d = iblk5 V c 5 t :=
  (dat5 V c).before_in_eq_fetched 5 rfl (fun _ => rfl) (fun _ _ _ => rfl) (fun _ => rfl) t d
theorem before5_6 (c : Dev nD) (t : Fin cfg5.N) (d) : (dat5 V c).before 6 t d = iblk5 V c 6 t :=
  (dat5 V c).before_in_eq_fetched 6 rfl (fun _ => rfl) (fun _ _ _ => rfl) (fun _ => rfl) t d
theorem before5_7 (c : Dev nD) (t : Fin cfg5.N) (d) : (dat5 V c).before 7 t d = iblk5 V c 7 t :=
  (dat5 V c).before_in_eq_fetched 7 rfl (fun _ => rfl) (fun _ _ _ => rfl) (fun _ => rfl) t d
theorem before5_8 (c : Dev nD) (t : Fin cfg5.N) (d) : (dat5 V c).before 8 t d = iblk5 V c 8 t :=
  (dat5 V c).before_in_eq_fetched 8 rfl (fun _ => rfl) (fun _ _ _ => rfl) (fun _ => rfl) t d
theorem before5_9 (c : Dev nD) (t : Fin cfg5.N) (d) : (dat5 V c).before 9 t d = iblk5 V c 9 t :=
  (dat5 V c).before_in_eq_fetched 9 rfl (fun _ => rfl) (fun _ _ _ => rfl) (fun _ => rfl) t d
theorem before5_10 (c : Dev nD) (t : Fin cfg5.N) (d) : (dat5 V c).before 10 t d = iblk5 V c 10 t :=
  (dat5 V c).before_in_eq_fetched 10 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel5 c Set.univ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) _)
  iframe
  isplitl [H11]; · iexists _; iexact H11
  iintro ⟨H0, H1, H2, H3, H4, H5, H6, H7, H8, H9, H10, H11⟩
  iframe

theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.KI.Run.lean ====
import proofs.«422229_j59227599011891_1_alg».proof.Proof.KI.R0
import proofs.«422229_j59227599011891_1_alg».proof.Proof.KI.R1
import proofs.«422229_j59227599011891_1_alg».proof.Proof.KI.R2
import proofs.«422229_j59227599011891_1_alg».proof.Proof.KI.R3
import proofs.«422229_j59227599011891_1_alg».proof.Proof.KI.R4
import proofs.«422229_j59227599011891_1_alg».proof.Proof.KI.R5
import proofs.«422229_j59227599011891_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev asV (W : Dev nD → Valuation τ sig (Elt F)) : (c : Dev nD) → (b : Ref sig .tc) → Buf (Elt F) ((c : Thread nD τ).loc b) := fun c b => W c b

abbrev W3 : Dev nD → Valuation τ sig (Elt F) := fun c => V3 m c
def W4 (c : Dev nD) : Valuation τ sig (Elt F) := Function.update (W3 m c) main_v26 ((dat0 (asV (W3 m)) c).arrAt 2 cfg0.N)
abbrev W5 : Dev nD → Valuation τ sig (Elt F) := fun c => StableHlo.after hostOps1 (W4 m c)
def W6 (c : Dev nD) : Valuation τ sig (Elt F) := Function.update (W5 m c) main_v41 ((dat1 (asV (W5 m)) c).arrAt 2 cfg1.N)
def W7 (c : Dev nD) : Valuation τ sig (Elt F) := Function.update (W6 m c) main_v42 ((dat2 (asV (W6 m)) c).arrAt 2 cfg2.N)
abbrev W8 : Dev nD → Valuation τ sig (Elt F) := fun c => StableHlo.after hostOps3 (W7 m c)
def W9 (c : Dev nD) : Valuation τ sig (Elt F) := Function.update (W8 m c) main_v57 ((dat3 (asV (W8 m)) c).arrAt 2 cfg3.N)
abbrev W10 : Dev nD → Valuation τ sig (Elt F) := fun c => StableHlo.after hostOps4 (W9 m c)
def W11 (c : Dev nD) : Valuation τ sig (Elt F) := Function.update (W10 m c) main_v59 ((dat4 (asV (W10 m)) c).arrAt 2 cfg4.N)
abbrev W12 : Dev nD → Valuation τ sig (Elt F) := fun c => StableHlo.after hostOps5 (W11 m c)
def W13 (c : Dev nD) : Valuation τ sig (Elt F) := Function.update (W12 m c) main_v74 ((dat5 (asV (W12 m)) c).arrAt 11 cfg5.N)

def outs : Outs (F := F) := fun J r c => match J with
  | 4 => W4 m c r
  | 6 => W6 m c r
  | 7 => W7 m c r
  | 9 => W9 m c r
  | 11 => W11 m c r
  | 13 => W13 m c r
  | _ => W3 m c r

theorem V4_eq (c : Dev nD) : V4 m (outs m) c = W4 m c := by
  show Function.update (V3 m c) main_v26 (W4 m c main_v26) = W4 m c
  unfold W4; rw [Function.update_self]
theorem V5_eq (c : Dev nD) : V5 m (outs m) c = W5 m c := by
  show StableHlo.after hostOps1 (V4 m (outs m) c) = _; rw [V4_eq]
theorem V6_eq (c : Dev nD) : V6 m (outs m) c = W6 m c := by
  show Function.update (V5 m (outs m) c) main_v41 (W6 m c main_v41) = W6 m c
  rw [V5_eq]; unfold W6; rw [Function.update_self]
theorem V7_eq (c : Dev nD) : V7 m (outs m) c = W7 m c := by
  show Function.update (V6 m (outs m) c) main_v42 (W7 m c main_v42) = W7 m c
  rw [V6_eq]; unfold W7; rw [Function.update_self]
theorem V8_eq (c : Dev nD) : V8 m (outs m) c = W8 m c := by
  show StableHlo.after hostOps3 (V7 m (outs m) c) = _; rw [V7_eq]
theorem V9_eq (c : Dev nD) : V9 m (outs m) c = W9 m c := by
  show Function.update (V8 m (outs m) c) main_v57 (W9 m c main_v57) = W9 m c
  rw [V8_eq]; unfold W9; rw [Function.update_self]
theorem V10_eq (c : Dev nD) : V10 m (outs m) c = W10 m c := by
  show StableHlo.after hostOps4 (V9 m (outs m) c) = _; rw [V9_eq]
theorem V11_eq (c : Dev nD) : V11 m (outs m) c = W11 m c := by
  show Function.update (V10 m (outs m) c) main_v59 (W11 m c main_v59) = W11 m c
  rw [V10_eq]; unfold W11; rw [Function.update_self]
theorem V12_eq (c : Dev nD) : V12 m (outs m) c = W12 m c := by
  show StableHlo.after hostOps5 (V11 m (outs m) c) = _; rw [V11_eq]
theorem V13_eq (c : Dev nD) : V13 m (outs m) c = W13 m c := by
  show Function.update (V12 m (outs m) c) main_v74 (W13 m c main_v74) = W13 m c
  rw [V12_eq]; unfold W13; rw [Function.update_self]

theorem W4_self (c : Dev nD) : W4 m c main_v26 = (dat0 (asV (W3 m)) c).arrAt 2 cfg0.N := by
  unfold W4; exact Function.update_self ..
theorem W4_of_ne (c : Dev nD) (b : Ref sig .tc) (hb : b ≠ main_v26) : W4 m c b = W3 m c b := by
  unfold W4; exact Function.update_of_ne (StableHlo.devRef_ne_of_ne hb) ..

-- A window that is only read keeps its array; the written window's array is the one updated entry of the contents.
set_option maxHeartbeats 2000000 in
theorem hF0 (c : Dev nD) (w : Fin cfg0.W) : (dat0 (asV (W3 m)) c).arrAt w cfg0.N = asV (W4 m) c (Pipeline.arrRef spec0 w) :=
  match w with
  | ⟨2, _⟩ => (W4_self m c).symm
  | ⟨0, _⟩ | ⟨1, _⟩ =>
    ((dat0 (asV (W3 m)) c).arrAt_in _ rfl _).trans ((A_eq0 (asV (W3 m)) c _).trans (W4_of_ne m c _ (by decide +revert)).symm)
theorem hrest0 (c : Dev nD) : ∀ b, b ∉ Finset.univ.image (Pipeline.arrRef spec0) → asV (W4 m) c b = asV (W3 m) c b :=
  fun b hb => W4_of_ne m c b fun e => hb (Finset.mem_image.mpr ⟨2, Finset.mem_univ _, e.symm⟩)

theorem W6_self (c : Dev nD) : W6 m c main_v41 = (dat1 (asV (W5 m)) c).arrAt 2 cfg1.N := by
  unfold W6; exact Function.update_self ..
theorem W6_of_ne (c : Dev nD) (b : Ref sig .tc) (hb : b ≠ main_v41) : W6 m c b = W5 m c b := by
  unfold W6; exact Function.update_of_ne (StableHlo.devRef_ne_of_ne hb) ..

set_option maxHeartbeats 2000000 in
theorem hF1 (c : Dev nD) (w : Fin cfg1.W) : (dat1 (asV (W5 m)) c).arrAt w cfg1.N = asV (W6 m) c (Pipeline.arrRef spec1 w) :=
  match w with
  | ⟨2, _⟩ => (W6_self m c).symm
  | ⟨0, _⟩ | ⟨1, _⟩ =>
    ((dat1 (asV (W5 m)) c).arrAt_in _ rfl _).trans ((A_eq1 (asV (W5 m)) c _).trans (W6_of_ne m c _ (by decide +revert)).symm)
theorem hrest1 (c : Dev nD) : ∀ b, b ∉ Finset.univ.image (Pipeline.arrRef spec1) → asV (W6 m) c b = asV (W5 m) c b :=
  fun b hb => W6_of_ne m c b fun e => hb (Finset.mem_image.mpr ⟨2, Finset.mem_univ _, e.symm⟩)

theorem W7_self (c : Dev nD) : W7 m c main_v42 = (dat2 (asV (W6 m)) c).arrAt 2 cfg2.N := by
  unfold W7; exact Function.update_self ..
theorem W7_of_ne (c : Dev nD) (b : Ref sig .tc) (hb : b ≠ main_v42) : W7 m c b = W6 m c b := by
  unfold W7; exact Function.update_of_ne (StableHlo.devRef_ne_of_ne hb) ..

set_option maxHeartbeats 2000000 in
theorem hF2 (c : Dev nD) (w : Fin cfg2.W) : (dat2 (asV (W6 m)) c).arrAt w cfg2.N = asV (W7 m) c (Pipeline.arrRef spec2 w) :=
  match w with
  | ⟨2, _⟩ => (W7_self m c).symm
  | ⟨0, _⟩ | ⟨1, _⟩ =>
    ((dat2 (asV (W6 m)) c).arrAt_in _ rfl _).trans ((A_eq2 (asV (W6 m)) c _).trans (W7_of_ne m c _ (by decide +revert)).symm)
theorem hrest2 (c : Dev nD) : ∀ b, b ∉ Finset.univ.image (Pipeline.arrRef spec2) → asV (W7 m) c b = asV (W6 m) c b :=
  fun b hb => W7_of_ne m c b fun e => hb (Finset.mem_image.mpr ⟨2, Finset.mem_univ _, e.symm⟩)

theorem W9_self (c : Dev nD) : W9 m c main_v57 = (dat3 (asV (W8 m)) c).arrAt 2 cfg3.N := by
  unfold W9; exact Function.update_self ..
theorem W9_of_ne (c : Dev nD) (b : Ref sig .tc) (hb : b ≠ main_v57) : W9 m c b = W8 m c b := by
  unfold W9; exact Function.update_of_ne (StableHlo.devRef_ne_of_ne hb) ..

set_option maxHeartbeats 2000000 in
theorem hF3 (c : Dev nD) (w : Fin cfg3.W) : (dat3 (asV (W8 m)) c).arrAt w cfg3.N = asV (W9 m) c (Pipeline.arrRef spec3 w) :=
  match w with
  | ⟨2, _⟩ => (W9_self m c).symm
  | ⟨0, _⟩ | ⟨1, _⟩ =>
    ((dat3 (asV (W8 m)) c).arrAt_in _ rfl _).trans ((A_eq3 (asV (W8 m)) c _).trans (W9_of_ne m c _ (by decide +revert)).symm)
theorem hrest3 (c : Dev nD) : ∀ b, b ∉ Finset.univ.image (Pipeline.arrRef spec3) → asV (W9 m) c b = asV (W8 m) c b :=
  fun b hb => W9_of_ne m c b fun e => hb (Finset.mem_image.mpr ⟨2, Finset.mem_univ _, e.symm⟩)

theorem W11_self (c : Dev nD) : W11 m c main_v59 = (dat4 (asV (W10 m)) c).arrAt 2 cfg4.N := by
  unfold W11; exact Function.update_self ..
theorem W11_of_ne (c : Dev nD) (b : Ref sig .tc) (hb : b ≠ main_v59) : W11 m c b = W10 m c b := by
  unfold W11; exact Function.update_of_ne (StableHlo.devRef_ne_of_ne hb) ..

set_option maxHeartbeats 2000000 in
theorem hF4 (c : Dev nD) (w : Fin cfg4.W) : (dat4 (asV (W10 m)) c).arrAt w cfg4.N = asV (W11 m) c (Pipeline.arrRef spec4 w) :=
  match w with
  | ⟨2, _⟩ => (W11_self m c).symm
  | ⟨0, _⟩ | ⟨1, _⟩ =>
    ((dat4 (asV (W10 m)) c).arrAt_in _ rfl _).trans ((A_eq4 (asV (W10 m)) c _).trans (W11_of_ne m c _ (by decide +revert)).symm)
theorem hrest4 (c : Dev nD) : ∀ b, b ∉ Finset.univ.image (Pipeline.arrRef spec4) → asV (W11 m) c b = asV (W10 m) c b :=
  fun b hb => W11_of_ne m c b fun e => hb (Finset.mem_image.mpr ⟨2, Finset.mem_univ _, e.symm⟩)

theorem W13_self (c : Dev nD) : W13 m c main_v74 = (dat5 (asV (W12 m)) c).arrAt 11 cfg5.N := by
  unfold W13; exact Function.update_self ..
theorem W13_of_ne (c : Dev nD) (b : Ref sig .tc) (hb : b ≠ main_v74) : W13 m c b = W12 m c b := by
  unfold W13; exact Function.update_of_ne (StableHlo.devRef_ne_of_ne hb) ..

set_option maxHeartbeats 2000000 in
theorem hF5 (c : Dev nD) (w : Fin cfg5.W) : (dat5 (asV (W12 m)) c).arrAt w cfg5.N = asV (W13 m) c (Pipeline.arrRef spec5 w) :=
  match w with
  | ⟨11, _⟩ => (W13_self m c).symm
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ =>
    ((dat5 (asV (W12 m)) c).arrAt_in _ rfl _).trans ((A_eq5 (asV (W12 m)) c _).trans (W13_of_ne m c _ (by decide +revert)).symm)
theorem hrest5 (c : Dev nD) : ∀ b, b ∉ Finset.univ.image (Pipeline.arrRef spec5) → asV (W13 m) c b = asV (W12 m) c b :=
  fun b hb => W13_of_ne m c b fun e => hb (Finset.mem_image.mpr ⟨11, Finset.mem_univ _, e.symm⟩)

def pdats : (p : Fin 6) → (c : Dev nD) → Dat τ (Elt F) Unit ℕ (UR sig nD τ) ℕ (cfgs p) c
  | ⟨0, _⟩ => fun c => dat0 (asV (W3 m)) c
  | ⟨1, _⟩ => fun c => dat1 (asV (W5 m)) c
  | ⟨2, _⟩ => fun c => dat2 (asV (W6 m)) c
  | ⟨3, _⟩ => fun c => dat3 (asV (W8 m)) c
  | ⟨4, _⟩ => fun c => dat4 (asV (W10 m)) c
  | ⟨5, _⟩ => fun c => dat5 (asV (W12 m)) c

abbrev 𝒱ₕ : Variants := Variants.none

abbrev Lh : GSem nD τ sig → Finset Unit := fun _ => ∅
abbrev lvh : GSem nD τ sig → Unit → ℕ := fun _ _ => 0

abbrev Rr (c : Dev nD) : sProp 𝕄 := iprop((∃ r, prngReg c r) ∗ ∃ W, owes (c : Thread nD τ) (0 : CellTallies nD τ sig Unit) W)

set_option backward.isDefEq.respectTransparency.types false in

def reg0 : Pipeline.RegionSeg (pcfgs (F := F)) adm (pdats m) () defs₀ 𝒱ₕ Lh lvh 0 where
  win := launch0.win.to₀
  block_pos := launch0.block_pos
  stage_whole := launch0.stage_whole
  K := PEmpty
  osem k := k.elim
  ho := Pipeline.OwnSemFacts.none _
  hbody c := (body_obligation0 (asV (W3 m)) c).loose
  hwaits := Pipeline.hwaits_of_owed_zero _ _ _ _ Lh lvh 0 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec0 c (asV (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (asV (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (asV (W3 m) c) (asV (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱ₕ Lh lvh 1 where
  win := launch1.win.to₀
  block_pos := launch1.block_pos
  stage_whole := launch1.stage_whole
  K := PEmpty
  osem k := k.elim
  ho := Pipeline.OwnSemFacts.none _
  hbody c := (body_obligation1 (asV (W5 m)) c).loose
  hwaits := Pipeline.hwaits_of_owed_zero _ _ _ _ Lh lvh 1 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec1 c (asV (W5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (asV (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (asV (W5 m) c) (asV (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱ₕ Lh lvh 2 where
  win := launch2.win.to₀
  block_pos := launch2.block_pos
  stage_whole := launch2.stage_whole
  K := PEmpty
  osem k := k.elim
  ho := Pipeline.OwnSemFacts.none _
  hbody c := (body_obligation2 (asV (W6 m)) c).loose
  hwaits := Pipeline.hwaits_of_owed_zero _ _ _ _ Lh lvh 2 fun _ _ => rfl
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec2 c (asV (W6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (asV (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (asV (W6 m) c) (asV (W7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m) () defs₀ 𝒱ₕ Lh lvh 3 where
  win := launch3.win.to₀
  block_pos := launch3.block_pos
  stage_whole := launch3.stage_whole
  K := PEmpty
  osem k := k.elim
  ho := Pipeline.OwnSemFacts.none _
  hbody c := (body_obligation3 (asV (W8 m)) c).loose
  hwaits := Pipeline.hwaits_of_owed_zero _ _ _ _ Lh lvh 3 fun _ _ => rfl
  pre c := iprop(StableHlo.held (c : Thread nD τ) (Pipeline.ucRefs τ sig) (W8 m c) ∗ Rr c)
  post c := iprop(StableHlo.held (c : Thread nD τ) (Pipeline.ucRefs τ sig) (W9 m c) ∗ Rr c)
  X c := iprop(∃ r, prngReg c r)
  Y c := iprop(∃ r, prngReg c r)
  Z c := Pipeline.unscopedRest (Ix := Unit) (Name := ℕ) (U := UR sig nD τ) (Lvl := ℕ) spec3 c (asV (W8 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (asV (W8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (asV (W8 m) c) (asV (W9 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m) () defs₀ 𝒱ₕ Lh lvh 4 where
  win := launch4.win.to₀
  block_pos := launch4.block_pos
  stage_whole := launch4.stage_whole
  K := PEmpty
  osem k := k.elim
  ho := Pipeline.OwnSemFacts.none _
  hbody c := (body_obligation4 (asV (W10 m)) c).loose
  hwaits := Pipeline.hwaits_of_owed_zero _ _ _ _ Lh lvh 4 fun _ _ => rfl
  pre c := iprop(StableHlo.held (c : Thread nD τ) (Pipeline.ucRefs τ sig) (W10 m c) ∗ Rr c)
  post c := iprop(StableHlo.held (c : Thread nD τ) (Pipeline.ucRefs τ sig) (W11 m c) ∗ Rr c)
  X c := iprop(∃ r, prngReg c r)
  Y c := iprop(∃ r, prngReg c r)
  Z c := Pipeline.unscopedRest (Ix := Unit) (Name := ℕ) (U := UR sig nD τ) (Lvl := ℕ) spec4 c (asV (W10 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (asV (W10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact hin4 (asV (W10 m)) c
  hout c := by
    exact hout4 (asV (W10 m)) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (asV (W10 m) c) (asV (W11 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m) () defs₀ 𝒱ₕ Lh lvh 5 where
  win := launch5.win.to₀
  block_pos := launch5.block_pos
  stage_whole := launch5.stage_whole
  K := PEmpty
  osem k := k.elim
  ho := Pipeline.OwnSemFacts.none _
  hbody c := (body_obligation5 (asV (W12 m)) c).loose
  hwaits := Pipeline.hwaits_of_owed_zero _ _ _ _ Lh lvh 5 fun _ _ => rfl
  pre c := iprop(StableHlo.held (c : Thread nD τ) (Pipeline.ucRefs τ sig) (W12 m c) ∗ Rr c)
  post c := iprop(StableHlo.held (c : Thread nD τ) (Pipeline.ucRefs τ sig) (W13 m c) ∗ Rr c)
  X c := iprop(∃ r, prngReg c r)
  Y c := iprop(∃ r, prngReg c r)
  Z c := Pipeline.unscopedRest (Ix := Unit) (Name := ℕ) (U := UR sig nD τ) (Lvl := ℕ) spec5 c (asV (W12 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (asV (W12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (asV (W12 m) c) (asV (W13 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem post0_host (c : Dev nD) : (iprop(StableHlo.held (c : Thread nD τ) (Pipeline.ucRefs τ sig) (W4 m c) ∗ Rr c) : sProp 𝕄) ⊢ iprop(StableHlo.held (c : Thread nD τ) (Pipeline.ucRefs τ sig) (V4 m (outs m) c) ∗ Rr c) := by rw [V4_eq m c]
theorem post2_host (c : Dev nD) : (iprop(StableHlo.held (c : Thread nD τ) (Pipeline.ucRefs τ sig) (W7 m c) ∗ Rr c) : sProp 𝕄) ⊢ iprop(StableHlo.held (c : Thread nD τ) (Pipeline.ucRefs τ sig) (V7 m (outs m) c) ∗ Rr c) := by rw [V7_eq m c]
theorem post3_host (c : Dev nD) : (iprop(StableHlo.held (c : Thread nD τ) (Pipeline.ucRefs τ sig) (W9 m c) ∗ Rr c) : sProp 𝕄) ⊢ iprop(StableHlo.held (c : Thread nD τ) (Pipeline.ucRefs τ sig) (V9 m (outs m) c) ∗ Rr c) := by rw [V9_eq m c]
theorem post4_host (c : Dev nD) : (iprop(StableHlo.held (c : Thread nD τ) (Pipeline.ucRefs τ sig) (W11 m c) ∗ Rr c) : sProp 𝕄) ⊢ iprop(StableHlo.held (c : Thread nD τ) (Pipeline.ucRefs τ sig) (V11 m (outs m) c) ∗ Rr c) := by rw [V11_eq m c]
theorem host_pre1 (c : Dev nD) : (iprop(StableHlo.held (c : Thread nD τ) (Pipeline.ucRefs τ sig) (V5 m (outs m) c) ∗ Rr c) : sProp 𝕄) ⊢ iprop(StableHlo.held (c : Thread nD τ) (Pipeline.ucRefs τ sig) (W5 m c) ∗ Rr c) := by rw [V5_eq m c]
theorem host_pre3 (c : Dev nD) : (iprop(StableHlo.held (c : Thread nD τ) (Pipeline.ucRefs τ sig) (V8 m (outs m) c) ∗ Rr c) : sProp 𝕄) ⊢ iprop(StableHlo.held (c : Thread nD τ) (Pipeline.ucRefs τ sig) (W8 m c) ∗ Rr c) := by rw [V8_eq m c]
theorem host_pre4 (c : Dev nD) : (iprop(StableHlo.held (c : Thread nD τ) (Pipeline.ucRefs τ sig) (V10 m (outs m) c) ∗ Rr c) : sProp 𝕄) ⊢ iprop(StableHlo.held (c : Thread nD τ) (Pipeline.ucRefs τ sig) (W10 m c) ∗ Rr c) := by rw [V10_eq m c]
theorem host_pre5 (c : Dev nD) : (iprop(StableHlo.held (c : Thread nD τ) (Pipeline.ucRefs τ sig) (V12 m (outs m) c) ∗ Rr c) : sProp 𝕄) ⊢ iprop(StableHlo.held (c : Thread nD τ) (Pipeline.ucRefs τ sig) (W12 m c) ∗ Rr c) := by rw [V12_eq m c]
theorem last_owes (c : Dev nD) : (iprop(StableHlo.held (c : Thread nD τ) (Pipeline.ucRefs τ sig) (W13 m c) ∗ Rr c) : sProp 𝕄)
    ⊢ iprop(StableHlo.held (c : Thread nD τ) (Pipeline.ucRefs τ sig) (W13 m c) ∗ ∃ W, owes (c : Thread nD τ) (0 : CellTallies nD τ sig Unit) W) := by
  iintro ⟨Hh, -, HO⟩
  isplitl [Hh]; · iexact Hh
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W13 m c b) := by
  refine Pipeline.θ_run_regions_kit_dev (pcfgs (F := F)) adm (pdats m) () cellOf_inj emb₁ defs₀ 𝒱ₕ Lh lvh m ρ main
    (segs m (outs m) 𝒱ₕ Lh lvh (fun _ c => Rr c) () (pdats m) (reg0 m) (reg1 m) (reg2 m) (reg3 m) (reg4 m) (reg5 m))
    (fun c Q => by
      rewrite [main_chain c, Seg.run_eq_chain,
        show ((segs m (outs m) 𝒱ₕ Lh lvh (fun _ c => Rr c) () (pdats m) (reg0 m) (reg1 m) (reg2 m) (reg3 m) (reg4 m) (reg5 m)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (W13 m c))
    (hch := fun c => ⟨.rfl, .rfl, .rfl, .rfl,
      post0_host m c, host_pre1 m c, .rfl,
      post2_host m c, host_pre3 m c,
      post3_host m c, host_pre4 m c,
      post4_host m c, host_pre5 m c,
      last_owes m c⟩)
    (hinit := by
      refine Pipeline.initEach Lh lvh fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨Hh, HSI⟩
      unfold StableHlo.held
      imodintro
      iapply (pointsTo_read_all (Pipeline.ucRefs τ sig) (fun b => (((c : Thread nD τ)).1, b)) (W13 m c) s')
      isplitl [Hh] <;> iassumption)
    (hQ := fun _ h => h)

theorem W13_arg (c : Dev nD) (b : Ref sig .tc) : W13 m c b = V13 m (outs m) c b := (congrFun (V13_eq m c) _).symm

-- Every weakly fair execution ends, fault-free, with the result array at what the last region leaves and the arguments as launched.
theorem run_val (ρ : Dev nD → PrngReg) :
    θ_run defs (onTc (τ := τ) (main (F := F))) ⟨m, fun _ => 0, ρ⟩ (fun r => ∀ c : Dev nD,
      r.2.mem ((c.tc : Thread nD τ).loc main_v74) = W13 m c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨h c _ (mem_uc main_v74 (by decide)), (h c _ (mem_uc main_arg0 (by decide))).trans ((W13_arg m c main_arg0).trans (V13_main_arg0 m (outs m) c)),
    (h c _ (mem_uc main_arg1 (by decide))).trans ((W13_arg m c main_arg1).trans (V13_main_arg1 m (outs m) c)),
    (h c _ (mem_uc main_arg2 (by decide))).trans ((W13_arg m c main_arg2).trans (V13_main_arg2 m (outs m) c)),
    (h c _ (mem_uc main_arg3 (by decide))).trans ((W13_arg m c main_arg3).trans (V13_main_arg3 m (outs m) c)),
    (h c _ (mem_uc main_arg4 (by decide))).trans ((W13_arg m c main_arg4).trans (V13_main_arg4 m (outs m) c)),
    (h c _ (mem_uc main_arg5 (by decide))).trans ((W13_arg m c main_arg5).trans (V13_main_arg5 m (outs m) c)),
    (h c _ (mem_uc main_arg6 (by decide))).trans ((W13_arg m c main_arg6).trans (V13_main_arg6 m (outs m) c)),
    (h c _ (mem_uc main_arg7 (by decide))).trans ((W13_arg m c main_arg7).trans (V13_main_arg7 m (outs m) c)),
    (h c _ (mem_uc main_arg8 (by decide))).trans ((W13_arg m c main_arg8).trans (V13_main_arg8 m (outs m) c)),
    (h c _ (mem_uc main_arg9 (by decide))).trans ((W13_arg m c main_arg9).trans (V13_main_arg9 m (outs m) c)),
    (h c _ (mem_uc main_arg10 (by decide))).trans ((W13_arg m c main_arg10).trans (V13_main_arg10 m (outs m) c)),
    (h c _ (mem_uc main_arg11 (by decide))).trans ((W13_arg m c main_arg11).trans (V13_main_arg11 m (outs m) c)),
    (h c _ (mem_uc main_arg12 (by decide))).trans ((W13_arg m c main_arg12).trans (V13_main_arg12 m (outs m) c)),
    (h c _ (mem_uc main_arg13 (by decide))).trans ((W13_arg m c main_arg13).trans (V13_main_arg13 m (outs m) c)),
    (h c _ (mem_uc main_arg14 (by decide))).trans ((W13_arg m c main_arg14).trans (V13_main_arg14 m (outs m) c)),
    (h c _ (mem_uc main_arg15 (by decide))).trans ((W13_arg m c main_arg15).trans (V13_main_arg15 m (outs m) c)),
    (h c _ (mem_uc main_arg16 (by decide))).trans ((W13_arg m c main_arg16).trans (V13_main_arg16 m (outs m) c)),
    (h c _ (mem_uc main_arg17 (by decide))).trans ((W13_arg m c main_arg17).trans (V13_main_arg17 m (outs m) c))⟩) (run_all m ρ)

end Cert.KernelIdeal.Frm

end
-- ==== Proof.Spec.lean ====
import proofs.«422229_j59227599011891_1_alg».proof.Proof.Gen.ReferenceIdeal

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

abbrev Arr (S : Shape) : Type := (⟨S, .f32⟩ : BufTy).Contents (Elt F)

def lin0 (x : Arr (F := F) S100000x128) (w : Arr (F := F) S128x64) : Arr (F := F) S100000x64 :=
  Host.dotGeneral dot_S100000x128_S128x64_S100000x64_1_0_0_1_n_n none x w

def br1 (pre : Arr (F := F) S100000x64) (b : Arr (F := F) S1x64) : Arr (F := F) S100000x64 :=
  maximumf (addf pre (broadcastInDim S100000x64 ![0, 1] bcast_S1x64_S100000x64_0_1 b))
    (broadcastInDim S100000x64 ![] bcast_S_S100000x64 (constant S_ .f32 0x00000000#32))

def lin2 (h : Arr (F := F) S100000x64) (w : Arr (F := F) S64x128) : Arr (F := F) S100000x128 :=
  Host.dotGeneral dot_S100000x64_S64x128_S100000x128_1_0_0_1_n_n none h w

def br3 (pre : Arr (F := F) S100000x128) (b : Arr (F := F) S1x128) : Arr (F := F) S100000x128 :=
  maximumf (addf pre (broadcastInDim S100000x128 ![0, 1] bcast_S1x128_S100000x128_0_1 b))
    (broadcastInDim S100000x128 ![] bcast_S_S100000x128 (constant S_ .f32 0x00000000#32))

def pool4 (h : Arr (F := F) S100000x128) (ids : (⟨S100000x1, .i32⟩ : BufTy).Contents (Elt F)) : Arr (F := F) S512x128 :=
  Host.scatterAdd scatter_S512x128_S100000x1_S100000x128_1_0_0_1
    (broadcastInDim S512x128 ![] bcast_S_S512x128 (constant S_ .f32 0x00000000#32)) ids h

def mlp5 (g : Arr (F := F) S512x128) (wf : Arr (F := F) S128x512) (bf : Arr (F := F) S1x512)
    (wh0 : Arr (F := F) S512x256) (bh0 : Arr (F := F) S1x256) (wh1 : Arr (F := F) S256x128) (bh1 : Arr (F := F) S1x128)
    (wh2 : Arr (F := F) S128x64) (bh2 : Arr (F := F) S1x64) (wo : Arr (F := F) S64x1) (bo : Arr (F := F) S1x1) : Arr (F := F) S512x1 :=
  addf (Host.dotGeneral dot_S512x64_S64x1_S512x1_1_0_0_1_n_n none
    (maximumf (addf (Host.dotGeneral dot_S512x128_S128x64_S512x64_1_0_0_1_n_n none
      (maximumf (addf (Host.dotGeneral dot_S512x256_S256x128_S512x128_1_0_0_1_n_n none
        (maximumf (addf (Host.dotGeneral dot_S512x512_S512x256_S512x256_1_0_0_1_n_n none
          (addf (Host.dotGeneral dot_S512x128_S128x512_S512x512_1_0_0_1_n_n none g wf)
            (broadcastInDim S512x512 ![0, 1] bcast_S1x512_S512x512_0_1 bf)) wh0)
          (broadcastInDim S512x256 ![0, 1] bcast_S1x256_S512x256_0_1 bh0))
          (broadcastInDim S512x256 ![] bcast_S_S512x256 (constant S_ .f32 0x00000000#32))) wh1)
        (broadcastInDim S512x128 ![0, 1] bcast_S1x128_S512x128_0_1 bh1))
        (broadcastInDim S512x128 ![] bcast_S_S512x128 (constant S_ .f32 0x00000000#32))) wh2)
      (broadcastInDim S512x64 ![0, 1] bcast_S1x64_S512x64_0_1 bh2))
      (broadcastInDim S512x64 ![] bcast_S_S512x64 (constant S_ .f32 0x00000000#32))) wo)
    (broadcastInDim S512x1 ![0, 1] bcast_S1x1_S512x1_0_1 bo)

end Cert.ReferenceIdeal.Spec

end
-- ==== Proof.LibDot.lean ====
import Idealize.ShloMosaic.Lib.ValueIdx
import Idealize.ShloMosaic.PureOps.Ideal.Laws

open scoped BigOperators

namespace Cert.LibDot

open Idealize.ShloMosaic Idealize.ShloMosaic.ValueIdx

variable {sl sr so : Shape} (d : DotDims sl sr so)

theorem val_congr {n : ℕ} {β : Fin n → Type} (f : (a : Fin n) → β a) (v : ∀ a, β a → ℕ) {p q : ℕ} (hp : p < n) (hq : q < n) (h : p = q) :
    v ⟨p, hp⟩ (f ⟨p, hp⟩) = v ⟨q, hq⟩ (f ⟨q, hq⟩) := by subst h; rfl

-- With no batch axis and one free axis on the left, the left index carries the result's first coordinate on that axis.
theorem lhsIdx_val_free (hb : d.lhsBatch = []) {a : Fin sl.rank} (hn : d.lhsNonContracting = [a]) (h0 : 0 < so.rank)
    (j : so.Idx) (k : d.contr.Idx) : (d.lhsIdx j k a).val = (j ⟨0, h0⟩).val := by
  have hmem : a ∈ d.lhsNonContracting := by rw [hn]; exact List.mem_singleton.mpr rfl
  unfold DotDims.lhsIdx
  rw [dif_neg (by rw [hb]; exact List.not_mem_nil), dif_pos hmem]
  simp only [Fin.val_cast]
  exact val_congr j (fun _ x => x.val) _ _ (by simp [hb, hn])

-- Likewise the right index carries the result's second coordinate on the right's free axis.
theorem rhsIdx_val_free (hb : d.lhsBatch = []) (hb' : d.rhsBatch = []) {a : Fin sl.rank} (hn : d.lhsNonContracting = [a])
    {b : Fin sr.rank} (hn' : d.rhsNonContracting = [b]) (h1 : 1 < so.rank)
    (j : so.Idx) (k : d.contr.Idx) : (d.rhsIdx j k b).val = (j ⟨1, h1⟩).val := by
  have hmem : b ∈ d.rhsNonContracting := by rw [hn']; exact List.mem_singleton.mpr rfl
  unfold DotDims.rhsIdx
  rw [dif_neg (by rw [hb']; exact List.not_mem_nil), dif_pos hmem]
  simp only [Fin.val_cast]
  exact val_congr j (fun _ x => x.val) _ _ (by simp [hb, hn, hn'])

-- An M×K by K×N product at an entry is the sum over the K inner positions of row entry times column entry.
theorem sum_plain {M K N : ℕ} (d : DotDims ⟨2, ![M, K]⟩ ⟨2, ![K, N]⟩ ⟨2, ![M, N]⟩)
    (hb : d.lhsBatch = []) (hb' : d.rhsBatch = []) (hn : d.lhsNonContracting = [0]) (hn' : d.rhsNonContracting = [1])
    (hc : d.lhsContracting = [1]) (hc' : d.rhsContracting = [0]) (hr : d.contr.rank = 1) (hs : d.contr.size ⟨0, by omega⟩ = K)
    {α : Type} [AddCommMonoid α] [Mul α] (X : (⟨2, ![M, K]⟩ : Shape).Idx → α) (W : (⟨2, ![K, N]⟩ : Shape).Idx → α)
    (i : (⟨2, ![M, N]⟩ : Shape).Idx) :
    ∑ q : d.contr.Idx, X (d.lhsIdx i q) * W (d.rhsIdx i q) = ∑ k : Fin K, X (ix2 (i 0) k) * W (ix2 k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact lhsIdx_val_free d hb hn Nat.zero_lt_two i _
    | ⟨1, _⟩ => exact (d.lhsIdx_val_of_single hc i _).trans hk)
  have er : d.rhsIdx i ((contrEquiv1 d K hr hs).symm k) = ix2 k (i 1) := funext fun a => Fin.ext (by
    match a with
    | ⟨0, _⟩ => exact (d.rhsIdx_val_of_single hc' i _).trans hk
    | ⟨1, _⟩ => exact rhsIdx_val_free d hb hb' hn hn' Nat.one_lt_two i _)
  exact congrArg₂ (· * ·) (congrArg X el) (congrArg W er)

end Cert.LibDot
-- ==== Proof.KI.V0.lean ====
import proofs.«422229_j59227599011891_1_alg».proof.Proof.KI.R0
import proofs.«422229_j59227599011891_1_alg».proof.Proof.Spec
import proofs.«422229_j59227599011891_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

theorem k0_pay1_apply (x0 : Vec Ideal S5000x128 .f32) (x1 : Vec Ideal S128x64 .f32) (y : S5000x64.Idx) :
    k0_pay1 (F := Ideal) x0 x1 y = ∑ k : Fin 128, x0 (ix2 (y 0) k) * x1 (ix2 k (y 1)) := by
  unfold k0_pay1
  simp only [matmul, shapeCast_self]
  rw [Ideal.matmul_constant_zero_apply]
  exact Cert.LibDot.sum_plain _ rfl rfl rfl rfl rfl rfl rfl rfl x0 x1 y

theorem spec0_lin_apply (X : S100000x128.Idx → EReal) (W : S128x64.Idx → EReal) (i : S100000x64.Idx) :
    Cert.ReferenceIdeal.Spec.lin0 (F := Ideal) X W i = ∑ k : Fin 128, X (ix2 (i 0) k) * W (ix2 k (i 1)) := by
  unfold Cert.ReferenceIdeal.Spec.lin0
  simp only [Host.dotGeneral]
  rw [Ideal.dotGeneral_apply]
  exact Cert.LibDot.sum_plain _ rfl rfl rfl rfl rfl rfl rfl rfl X W i

-- The block product at entry y is the whole product at entry i once the blocks agree with the arrays along i's row and column.
theorem k0_pay1_eq_lin (X : S100000x128.Idx → EReal) (W : S128x64.Idx → EReal)
    (x0 : Vec Ideal S5000x128 .f32) (x1 : Vec Ideal S128x64 .f32) (y : S5000x64.Idx) (i : S100000x64.Idx)
    (h0 : ∀ k : Fin 128, x0 (ix2 (y 0) k) = X (ix2 (i 0) k)) (h1 : ∀ k : Fin 128, x1 (ix2 k (y 1)) = W (ix2 k (i 1))) :
    k0_pay1 (F := Ideal) x0 x1 y = Cert.ReferenceIdeal.Spec.lin0 (F := Ideal) X W i := by
  rw [k0_pay1_apply, spec0_lin_apply]
  exact Finset.sum_congr rfl fun k _ => by rw [h0, h1]

variable (V : (c : Dev nD) → (b : Ref sig .tc) → Buf (Elt Ideal) ((c : Thread nD τ).loc b))

theorem r0_zero : (![0, 0] : Fin 2 → Nat) = fun _ => 0 := funext fun a => by fin_cases a <;> rfl

theorem win0_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

theorem win0_onto : ∀ q0 : Fin 20, ∃ t : Fin cfg0.N, win0_2.index t = ![q0.val, 0] :=
  (by decide +kernel : ∀ q0 : Fin 20, ∃ t : Fin grid0.N, win0_2.index t = ![q0.val, 0])

theorem flushed0_eq (c : Dev nD) (t : Fin cfg0.N) :
    (dat0 (F := Ideal) V c).flushed 2 t = ((cfg0.win 2).blk t).view.read (Elt Ideal)
      (Cert.ReferenceIdeal.Spec.lin0 (F := Ideal) (V c main_arg0) (V c main_arg4)) := by
  show (cfg0.win 2).cut (grid0.coords t) ((dat0 (F := Ideal) V c).after 2 t) = _
  rw [after0_2]
  unfold out0_2
  rw [View.canon_unit_zero r0_zero]
  simp only [View.ld_unit_zero (S := S5000x128) r0_zero, View.ld_unit_zero (S := S128x64) r0_zero]
  obtain ⟨e0, e1, e2, e3, e4, e5⟩ := win0_facts t
  funext y
  show k0_pay1 (F := Ideal) (iblk0 V c 0 t) (iblk0 V c 1 t) y
    = Cert.ReferenceIdeal.Spec.lin0 (F := Ideal) (V c main_arg0) (V c main_arg4) (((cfg0.win 2).blk t).view.emb y)
  refine k0_pay1_eq_lin (V c main_arg0) (V c main_arg4) (iblk0 V c 0 t) (iblk0 V c 1 t) y (((cfg0.win 2).blk t).view.emb y) (fun k => ?_) (fun k => ?_)
  · show V c main_arg0 (((cfg0.win 0).blk t).view.emb (ix2 (y 0) k)) = V c main_arg0 (ix2 ((((cfg0.win 2).blk t).view.emb y) 0) k)
    refine congrArg _ (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  · show V c main_arg4 (((cfg0.win 1).blk t).view.emb (ix2 k (y 1))) = V c main_arg4 (ix2 k ((((cfg0.win 2).blk t).view.emb y) 1))
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (y 1).val = win0_2.index t (1 : Fin 2) * 64 + 1 * (y 1).val; omega

theorem win0_mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v26).slice (win0_2.rect t)).set ↔ _
  rw [View.set_slice_whole, Rect.mem_set_unit]
  exact Iff.rfl

-- Row r lies in row block r / 5000, so the twenty blocks cover the array.
theorem cover0_arr (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := win0_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [win0_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

-- So after the region the output array is the product of the two arrays the region found.
theorem final0 (c : Dev nD) :
    (dat0 (F := Ideal) V c).arrAt 2 cfg0.N = Cert.ReferenceIdeal.Spec.lin0 (F := Ideal) (V c main_arg0) (V c main_arg4) :=
  (dat0 (F := Ideal) V c).arrAt_eq_of_cover 2 (Cert.ReferenceIdeal.Spec.lin0 (F := Ideal) (V c main_arg0) (V c main_arg4))
    (fun t _ => flushed0_eq V c t) cover0_arr

end Cert.KernelIdeal.Frm

end
-- ==== Proof.KI.V1.lean ====
import proofs.«422229_j59227599011891_1_alg».proof.Proof.KI.R1
import proofs.«422229_j59227599011891_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem hz1 : (![0, 0] : Fin 2 → Nat) = fun _ => 0 := funext fun a => by fin_cases a <;> rfl

theorem pay1_at (x0 : Vec Ideal S5000x64 .f32) (x1 : Vec Ideal S1x64 .f32) (j : S5000x64.Idx) (k : S1x64.Idx)
    (hk0 : (k 0).val = 0) (hk1 : (k 1).val = (j 1).val) :
    k1_pay1 x0 x1 j = max (x0 j + x1 k) (Ideal.ofBits .f32 0x00000000#32) := by
  unfold k1_pay1
  simp only [shapeCast_self]
  show max (x0 j + broadcastTo S5000x64 x1 broadcasts_S1x64_S5000x64 j) (Ideal.ofBits .f32 0x00000000#32) = _
  refine congrArg (fun z => max (x0 j + z) (Ideal.ofBits .f32 0x00000000#32)) ?_
  refine broadcastTo_apply x1 broadcasts_S1x64_S5000x64 j k ?_
  intro a
  match a with
  | ⟨0, _⟩ => exact hk0
  | ⟨1, _⟩ => exact hk1

theorem br1_at (pre : Cert.ReferenceIdeal.Spec.Arr (F := Ideal) S100000x64) (b : Cert.ReferenceIdeal.Spec.Arr (F := Ideal) S1x64)
    (i : S100000x64.Idx) (k : S1x64.Idx) (hk0 : (k 0).val = 0) (hk1 : (k 1).val = (i 1).val) :
    Cert.ReferenceIdeal.Spec.br1 (F := Ideal) pre b i = max (pre i + b k) (Ideal.ofBits .f32 0x00000000#32) := by
  unfold Cert.ReferenceIdeal.Spec.br1
  show max (pre i + broadcastInDim S100000x64 ![0, 1] _ b i) (Ideal.ofBits .f32 0x00000000#32) = _
  refine congrArg (fun z => max (pre i + z) (Ideal.ofBits .f32 0x00000000#32)) ?_
  refine broadcastInDim_apply ![0, 1] _ b i k ?_
  intro a
  match a with
  | ⟨0, _⟩ => exact hk0
  | ⟨1, _⟩ => exact hk1

variable (V : (c : Dev nD) → (b : Ref sig .tc) → Buf (Elt Ideal) ((c : Thread nD τ).loc b))

theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed1_eq (c : Dev nD) (t : Fin cfg1.N) :
    (dat1 (F := Ideal) V c).flushed 2 t
      = ((cfg1.win 2).blk t).view.read (Elt Ideal) (Cert.ReferenceIdeal.Spec.br1 (F := Ideal) (V c main_v39) (V c main_v40)) := by
  show (cfg1.win 2).cut (grid1.coords t) ((dat1 V c).after 2 t) = _
  rw [after1_2]
  unfold out1_2
  rw [View.canon_unit_zero hz1]
  simp only [View.ld_unit_zero (S := S5000x64) hz1, View.ld_unit_zero (S := S1x64) hz1]
  obtain ⟨e0, e1, e2, e3, e4, e5⟩ := blocks1 t
  refine funext fun (j : S5000x64.Idx) => ?_
  show k1_pay1 (iblk1 V c 0 t) (iblk1 V c 1 t) j
    = Cert.ReferenceIdeal.Spec.br1 (F := Ideal) (V c main_v39) (V c main_v40) (((cfg1.win 2).blk t).view.emb j)
  have hj0 : (j 0).val < 5000 := (j 0).isLt
  have hj1 : (j 1).val < 64 := (j 1).isLt
  have h0 : (iblk1 V c 0 t : Vec Ideal S5000x64 .f32) j = V c main_v39 (((cfg1.win 2).blk t).view.emb j) := by
    show V c main_v39 (((cfg1.win 0).blk t).view.emb j) = _
    refine congrArg (V c main_v39) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : (iblk1 V c 1 t : Vec Ideal S1x64 .f32) (ix2 (0 : Fin 1) (j 1)) = V c main_v40 (ix2 (0 : Fin 1) (j 1)) := by
    show V c main_v40 (((cfg1.win 1).blk t).view.emb (ix2 (0 : Fin 1) (j 1))) = _
    refine congrArg (V c main_v40) (funext fun a => Fin.ext ?_)
    match a with
    | ⟨0, _⟩ => show win1_1.index t (0 : Fin 2) * 1 + 1 * 0 = 0; omega
    | ⟨1, _⟩ => show win1_1.index t (1 : Fin 2) * 64 + 1 * (j 1).val = (j 1).val; omega
  refine (pay1_at (iblk1 V c 0 t) (iblk1 V c 1 t) j (ix2 (0 : Fin 1) (j 1)) rfl rfl).trans ?_
  refine Eq.trans ?_ (br1_at (V c main_v39) (V c main_v40) (((cfg1.win 2).blk t).view.emb j) (ix2 (0 : Fin 1) (j 1)) rfl ?_).symm
  · rw [h0, h1]
  · show (j 1).val = win1_2.index t (1 : Fin 2) * 64 + 1 * (j 1).val
    omega

theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v41).slice (win1_2.rect t)).set ↔ _
  rw [View.set_slice_whole, Rect.mem_set_unit]
  exact Iff.rfl

theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have hlt : (i 0).val / 5000 < cfg1.N := by rw [hN]; omega
  have ht : (⟨(i 0).val / 5000, hlt⟩ : Fin cfg1.N).val = (i 0).val / 5000 := rfl
  obtain ⟨e0, e1, e2, e3, e4, e5⟩ := blocks1 ⟨(i 0).val / 5000, hlt⟩
  refine ⟨⟨(i 0).val / 5000, hlt⟩, flush1_2 _, ?_⟩
  rw [mem_blk1]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    omega
  | ⟨1, _⟩ =>
    show win1_2.index ⟨(i 0).val / 5000, hlt⟩ (1 : Fin 2) * 64 ≤ (i 1).val
      ∧ (i 1).val < win1_2.index ⟨(i 0).val / 5000, hlt⟩ (1 : Fin 2) * 64 + 64
    omega

theorem final1 (c : Dev nD) :
    (dat1 (F := Ideal) V c).arrAt 2 cfg1.N = Cert.ReferenceIdeal.Spec.br1 (F := Ideal) (V c main_v39) (V c main_v40) :=
  (dat1 (F := Ideal) V c).arrAt_eq_of_cover 2 (Cert.ReferenceIdeal.Spec.br1 (F := Ideal) (V c main_v39) (V c main_v40))
    (fun t _ => flushed1_eq V c t) cover1

end Cert.KernelIdeal.Frm

end
-- ==== Proof.KI.V2.lean ====
import proofs.«422229_j59227599011891_1_alg».proof.Proof.KI.R2
import proofs.«422229_j59227599011891_1_alg».proof.Proof.Spec
import proofs.«422229_j59227599011891_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

theorem k2_pay1_apply (x0 : Vec Ideal S5000x64 .f32) (x1 : Vec Ideal S64x128 .f32) (y : S5000x128.Idx) :
    k2_pay1 (F := Ideal) x0 x1 y = ∑ k : Fin 64, x0 (ix2 (y 0) k) * x1 (ix2 k (y 1)) := by
  unfold k2_pay1
  simp only [matmul, shapeCast_self]
  rw [Ideal.matmul_constant_zero_apply]
  exact Cert.LibDot.sum_plain _ rfl rfl rfl rfl rfl rfl rfl rfl x0 x1 y

theorem spec2_lin_apply (X : S100000x64.Idx → EReal) (W : S64x128.Idx → EReal) (i : S100000x128.Idx) :
    Cert.ReferenceIdeal.Spec.lin2 (F := Ideal) X W i = ∑ k : Fin 64, X (ix2 (i 0) k) * W (ix2 k (i 1)) := by
  unfold Cert.ReferenceIdeal.Spec.lin2
  simp only [Host.dotGeneral]
  rw [Ideal.dotGeneral_apply]
  exact Cert.LibDot.sum_plain _ rfl rfl rfl rfl rfl rfl rfl rfl X W i

-- The block product at entry y is the whole product at entry i once the blocks agree with the arrays along i's row and column.
theorem k2_pay1_eq_lin (X : S100000x64.Idx → EReal) (W : S64x128.Idx → EReal)
    (x0 : Vec Ideal S5000x64 .f32) (x1 : Vec Ideal S64x128 .f32) (y : S5000x128.Idx) (i : S100000x128.Idx)
    (h0 : ∀ k : Fin 64, x0 (ix2 (y 0) k) = X (ix2 (i 0) k)) (h1 : ∀ k : Fin 64, x1 (ix2 k (y 1)) = W (ix2 k (i 1))) :
    k2_pay1 (F := Ideal) x0 x1 y = Cert.ReferenceIdeal.Spec.lin2 (F := Ideal) X W i := by
  rw [k2_pay1_apply, spec2_lin_apply]
  exact Finset.sum_congr rfl fun k _ => by rw [h0, h1]

variable (V : (c : Dev nD) → (b : Ref sig .tc) → Buf (Elt Ideal) ((c : Thread nD τ).loc b))

theorem r2_zero : (![0, 0] : Fin 2 → Nat) = fun _ => 0 := funext fun a => by fin_cases a <;> rfl

theorem win2_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

theorem win2_onto : ∀ q0 : Fin 20, ∃ t : Fin cfg2.N, win2_2.index t = ![q0.val, 0] :=
  (by decide +kernel : ∀ q0 : Fin 20, ∃ t : Fin grid2.N, win2_2.index t = ![q0.val, 0])

theorem flushed2_eq (c : Dev nD) (t : Fin cfg2.N) :
    (dat2 (F := Ideal) V c).flushed 2 t = ((cfg2.win 2).blk t).view.read (Elt Ideal)
      (Cert.ReferenceIdeal.Spec.lin2 (F := Ideal) (V c main_v41) (V c main_arg6)) := by
  show (cfg2.win 2).cut (grid2.coords t) ((dat2 (F := Ideal) V c).after 2 t) = _
  rw [after2_2]
  unfold out2_2
  rw [View.canon_unit_zero r2_zero]
  simp only [View.ld_unit_zero (S := S5000x64) r2_zero, View.ld_unit_zero (S := S64x128) r2_zero]
  obtain ⟨e0, e1, e2, e3, e4, e5⟩ := win2_facts t
  funext y
  show k2_pay1 (F := Ideal) (iblk2 V c 0 t) (iblk2 V c 1 t) y
    = Cert.ReferenceIdeal.Spec.lin2 (F := Ideal) (V c main_v41) (V c main_arg6) (((cfg2.win 2).blk t).view.emb y)
  refine k2_pay1_eq_lin (V c main_v41) (V c main_arg6) (iblk2 V c 0 t) (iblk2 V c 1 t) y (((cfg2.win 2).blk t).view.emb y) (fun k => ?_) (fun k => ?_)
  · show V c main_v41 (((cfg2.win 0).blk t).view.emb (ix2 (y 0) k)) = V c main_v41 (ix2 ((((cfg2.win 2).blk t).view.emb y) 0) k)
    refine congrArg _ (funext fun a => Fin.ext ?_)
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 64 + 1 * k.val = k.val; omega
  · show V c main_arg6 (((cfg2.win 1).blk t).view.emb (ix2 k (y 1))) = V c main_arg6 (ix2 k ((((cfg2.win 2).blk t).view.emb y) 1))
    refine congrArg _ (funext fun a => Fin.ext ?_)
    match a with
    | ⟨0, _⟩ => show win2_1.index t (0 : Fin 2) * 64 + 1 * k.val = k.val; omega
    | ⟨1, _⟩ => show win2_1.index t (1 : Fin 2) * 128 + 1 * (y 1).val = win2_2.index t (1 : Fin 2) * 128 + 1 * (y 1).val; omega

theorem win2_mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v42).slice (win2_2.rect t)).set ↔ _
  rw [View.set_slice_whole, Rect.mem_set_unit]
  exact Iff.rfl

-- Row r lies in row block r / 5000, so the twenty blocks cover the array.
theorem cover2_arr (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := win2_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [win2_mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

-- So after the region the output array is the product of the two arrays the region found.
theorem final2 (c : Dev nD) :
    (dat2 (F := Ideal) V c).arrAt 2 cfg2.N = Cert.ReferenceIdeal.Spec.lin2 (F := Ideal) (V c main_v41) (V c main_arg6) :=
  (dat2 (F := Ideal) V c).arrAt_eq_of_cover 2 (Cert.ReferenceIdeal.Spec.lin2 (F := Ideal) (V c main_v41) (V c main_arg6))
    (fun t _ => flushed2_eq V c t) cover2_arr

end Cert.KernelIdeal.Frm

end
-- ==== Proof.KI.V3.lean ====
import proofs.«422229_j59227599011891_1_alg».proof.Proof.KI.R3
import proofs.«422229_j59227599011891_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem hz3 : (![0, 0] : Fin 2 → Nat) = fun _ => 0 := funext fun a => by fin_cases a <;> rfl

theorem pay3_at (x0 : Vec Ideal S5000x128 .f32) (x1 : Vec Ideal S1x128 .f32) (j : S5000x128.Idx) (k : S1x128.Idx)
    (hk0 : (k 0).val = 0) (hk1 : (k 1).val = (j 1).val) :
    k3_pay1 x0 x1 j = max (x0 j + x1 k) (Ideal.ofBits .f32 0x00000000#32) := by
  unfold k3_pay1
  simp only [shapeCast_self]
  show max (x0 j + broadcastTo S5000x128 x1 broadcasts_S1x128_S5000x128 j) (Ideal.ofBits .f32 0x00000000#32) = _
  refine congrArg (fun z => max (x0 j + z) (Ideal.ofBits .f32 0x00000000#32)) ?_
  refine broadcastTo_apply x1 broadcasts_S1x128_S5000x128 j k ?_
  intro a
  match a with
  | ⟨0, _⟩ => exact hk0
  | ⟨1, _⟩ => exact hk1

theorem br3_at (pre : Cert.ReferenceIdeal.Spec.Arr (F := Ideal) S100000x128) (b : Cert.ReferenceIdeal.Spec.Arr (F := Ideal) S1x128)
    (i : S100000x128.Idx) (k : S1x128.Idx) (hk0 : (k 0).val = 0) (hk1 : (k 1).val = (i 1).val) :
    Cert.ReferenceIdeal.Spec.br3 (F := Ideal) pre b i = max (pre i + b k) (Ideal.ofBits .f32 0x00000000#32) := by
  unfold Cert.ReferenceIdeal.Spec.br3
  show max (pre i + broadcastInDim S100000x128 ![0, 1] _ b i) (Ideal.ofBits .f32 0x00000000#32) = _
  refine congrArg (fun z => max (pre i + z) (Ideal.ofBits .f32 0x00000000#32)) ?_
  refine broadcastInDim_apply ![0, 1] _ b i k ?_
  intro a
  match a with
  | ⟨0, _⟩ => exact hk0
  | ⟨1, _⟩ => exact hk1

variable (V : (c : Dev nD) → (b : Ref sig .tc) → Buf (Elt Ideal) ((c : Thread nD τ).loc b))

theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem flushed3_eq (c : Dev nD) (t : Fin cfg3.N) :
    (dat3 (F := Ideal) V c).flushed 2 t
      = ((cfg3.win 2).blk t).view.read (Elt Ideal) (Cert.ReferenceIdeal.Spec.br3 (F := Ideal) (V c main_v55) (V c main_v56)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S1x128) hz3]
  obtain ⟨e0, e1, e2, e3, e4, e5⟩ := blocks3 t
  refine funext fun (j : S5000x128.Idx) => ?_
  show k3_pay1 (iblk3 V c 0 t) (iblk3 V c 1 t) j
    = Cert.ReferenceIdeal.Spec.br3 (F := Ideal) (V c main_v55) (V c main_v56) (((cfg3.win 2).blk t).view.emb j)
  have hj0 : (j 0).val < 5000 := (j 0).isLt
  have hj1 : (j 1).val < 128 := (j 1).isLt
  have h0 : (iblk3 V c 0 t : Vec Ideal S5000x128 .f32) j = V c main_v55 (((cfg3.win 2).blk t).view.emb j) := by
    show V c main_v55 (((cfg3.win 0).blk t).view.emb j) = _
    refine congrArg (V c main_v55) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : (iblk3 V c 1 t : Vec Ideal S1x128 .f32) (ix2 (0 : Fin 1) (j 1)) = V c main_v56 (ix2 (0 : Fin 1) (j 1)) := by
    show V c main_v56 (((cfg3.win 1).blk t).view.emb (ix2 (0 : Fin 1) (j 1))) = _
    refine congrArg (V c main_v56) (funext fun a => Fin.ext ?_)
    match a with
    | ⟨0, _⟩ => show win3_1.index t (0 : Fin 2) * 1 + 1 * 0 = 0; omega
    | ⟨1, _⟩ => show win3_1.index t (1 : Fin 2) * 128 + 1 * (j 1).val = (j 1).val; omega
  refine (pay3_at (iblk3 V c 0 t) (iblk3 V c 1 t) j (ix2 (0 : Fin 1) (j 1)) rfl rfl).trans ?_
  refine Eq.trans ?_ (br3_at (V c main_v55) (V c main_v56) (((cfg3.win 2).blk t).view.emb j) (ix2 (0 : Fin 1) (j 1)) rfl ?_).symm
  · rw [h0, h1]
  · show (j 1).val = win3_2.index t (1 : Fin 2) * 128 + 1 * (j 1).val
    omega

theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v57).slice (win3_2.rect t)).set ↔ _
  rw [View.set_slice_whole, Rect.mem_set_unit]
  exact Iff.rfl

theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have hlt : (i 0).val / 5000 < cfg3.N := by rw [hN]; omega
  have ht : (⟨(i 0).val / 5000, hlt⟩ : Fin cfg3.N).val = (i 0).val / 5000 := rfl
  obtain ⟨e0, e1, e2, e3, e4, e5⟩ := blocks3 ⟨(i 0).val / 5000, hlt⟩
  refine ⟨⟨(i 0).val / 5000, hlt⟩, flush3_2 _, ?_⟩
  rw [mem_blk3]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    omega
  | ⟨1, _⟩ =>
    show win3_2.index ⟨(i 0).val / 5000, hlt⟩ (1 : Fin 2) * 128 ≤ (i 1).val
      ∧ (i 1).val < win3_2.index ⟨(i 0).val / 5000, hlt⟩ (1 : Fin 2) * 128 + 128
    omega

theorem final3 (c : Dev nD) :
    (dat3 (F := Ideal) V c).arrAt 2 cfg3.N = Cert.ReferenceIdeal.Spec.br3 (F := Ideal) (V c main_v55) (V c main_v56) :=
  (dat3 (F := Ideal) V c).arrAt_eq_of_cover 2 (Cert.ReferenceIdeal.Spec.br3 (F := Ideal) (V c main_v55) (V c main_v56))
    (fun t _ => flushed3_eq V c t) cover3

end Cert.KernelIdeal.Frm

end
-- ==== Proof.KI.PoolMath.lean ====
import proofs.«422229_j59227599011891_1_alg».proof.Proof.LibDot
import proofs.«422229_j59227599011891_1_alg».proof.Proof.Gen.KernelIdeal.Skeleton
import proofs.«422229_j59227599011891_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe
open Idealize.ShloMosaic.ValueIdx

-- The one-hot product at (g, f) is the sum over the 5000 rows of indicator times entry.
theorem poolDot_apply {φ₁ φ₂ : FTy} (l : FVec Ideal S512x5000 φ₁) (x : FVec Ideal S5000x128 φ₂) (g : Fin 512) (f : Fin 128) :
    FloatOps.matmul dot_S512x5000_S5000x128_S512x128_1_0_0_1_n_n none l x (constant (F := Ideal) S512x128 .f32 0x00000000#32) (ix2 g f)
      = ∑ r : Fin 5000, l (ix2 g r) * x (ix2 r f) := by
  rw [Ideal.matmul_constant_zero_apply]
  exact Cert.LibDot.sum_plain (α := EReal) _ rfl rfl rfl rfl rfl rfl rfl rfl l x (ix2 g f)

theorem toInt_ofNat_graph (g : Fin 512) : (BitVec.ofNat 32 g.val).toInt = (g.val : Int) := by
  have := g.isLt
  rw [BitVec.toInt_eq_toNat_cond, BitVec.toNat_ofNat]
  omega

theorem indicator_apply (ids : Vec Ideal S5000x1 .i32) (hc : S5000x1.ShapeCasts S5000x1) (hb : S5000x1.Broadcasts S5000x512)
    (hi : S5000x512.Iotas .tc 32 [1]) (hw : 1 < 32) (r : Fin 5000) (g : Fin 512) :
    (sitofp .f32 (extui 32 (cmpi .eq (broadcastTo S5000x512 (shapeCast S5000x1 ids hc) hb) (iota .tc S5000x512 32 [1] hi)) hw) : FVec Ideal S5000x512 .f32) (ix2 r g)
      = if ids (ix2 r 0) = BitVec.ofNat 32 g.val then 1 else 0 := by
  have e1 : broadcastTo S5000x512 (shapeCast S5000x1 ids hc) hb (ix2 r g) = ids (ix2 r 0) := by
    rw [shapeCast_self]
    exact broadcastTo_apply ids hb (ix2 r g) (ix2 r 0) (fun a => match a with | ⟨0, _⟩ => rfl | ⟨1, _⟩ => rfl)
  have e2 : iota .tc S5000x512 32 [1] hi (ix2 r g) = BitVec.ofNat 32 g.val := iota_single_apply .tc S5000x512 32 1 hi (ix2 r g)
  show ((((BitVec.ofBool (broadcastTo S5000x512 (shapeCast S5000x1 ids hc) hb (ix2 r g) == iota .tc S5000x512 32 [1] hi (ix2 r g))).setWidth 32).toInt : ℝ) : EReal) = _
  rw [e1, e2]
  by_cases h : ids (ix2 r 0) = BitVec.ofNat 32 g.val
  · rw [if_pos h, beq_iff_eq.2 h, show ((BitVec.ofBool true).setWidth 32).toInt = 1 by decide]; norm_num
  · rw [if_neg h, beq_eq_false_iff_ne.2 h, show ((BitVec.ofBool false).setWidth 32).toInt = 0 by decide]; norm_num

theorem k4_pay2_apply (ids : Vec Ideal S5000x1 .i32) (h : Vec Ideal S5000x128 .f32) (s : Vec Ideal S512x128 .f32) (g : Fin 512) (f : Fin 128) :
    k4_pay2 (F := Ideal) ids h s (ix2 g f)
      = s (ix2 g f) + ∑ r : Fin 5000, (if ids (ix2 r 0) = BitVec.ofNat 32 g.val then h (ix2 r f) else 0) := by
  unfold k4_pay2
  dsimp only
  rw [shapeCast_self]
  show s (ix2 g f) + _ = _
  refine congrArg (s (ix2 g f) + ·) ?_
  refine (poolDot_apply _ _ g f).trans ?_
  refine Finset.sum_congr rfl fun r _ => ?_
  rw [transpose_ix2_apply]
  show (sitofp .f32 _ : FVec Ideal S5000x512 .f32) (ix2 r g) * (shapeCast S5000x128 h _) (ix2 r f) = _
  rw [indicator_apply, shapeCast_self]
  by_cases hr : ids (ix2 r 0) = BitVec.ofNat 32 g.val
  · rw [if_pos hr, if_pos hr, one_mul]
  · rw [if_neg hr, if_neg hr, zero_mul]

theorem k4_pay1_apply (g : Fin 512) (f : Fin 128) : k4_pay1 (F := Ideal) (ix2 g f) = 0 := by
  unfold k4_pay1
  rw [shapeCast_self]
  exact Ideal.ofBits_zero_f32

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro e
    split at e
    · rename_i h
      have e' := Option.some.inj e
      intro a
      have e2 := congrArg (fun k => (k a).val) e'
      simp only at e2
      have := h a
      omega
    · cases e
  · intro hall
    have h : ∀ a, 0 ≤ d.start j idx a + d.window j a ∧ d.start j idx a + d.window j a < s.size a := fun a => by
      have := hall a; have := (i a).isLt; omega
    rw [dif_pos h]
    refine congrArg some (funext fun a => Fin.ext ?_)
    show (d.start j idx a + d.window j a).toNat = (i a).val
    have := hall a; omega

theorem poolStart_0 (ids : IVec Cert.ReferenceIdeal.S100000x1 32) (n : Fin 100000) (c : Fin 128) :
    Cert.ReferenceIdeal.scatter_S512x128_S100000x1_S100000x128_1_0_0_1.start (ix2 n c) ids 0 = (ids (ix2 n 0)).toInt := by
  unfold ScatterDims.start
  rw [dif_pos (show (0 : Fin Cert.ReferenceIdeal.S512x128.rank) ∈ Cert.ReferenceIdeal.scatter_S512x128_S100000x1_S100000x128_1_0_0_1.scatterDimsToOperandDims by decide)]
  refine congrArg (fun k => (ids k).toInt) (funext fun b => Fin.ext ?_)
  match b with
  | ⟨0, _⟩ => rfl
  | ⟨1, _⟩ => rfl

theorem poolStart_1 (ids : IVec Cert.ReferenceIdeal.S100000x1 32) (n : Fin 100000) (c : Fin 128) :
    Cert.ReferenceIdeal.scatter_S512x128_S100000x1_S100000x128_1_0_0_1.start (ix2 n c) ids 1 = 0 := by
  unfold ScatterDims.start
  rw [dif_neg (show ¬(1 : Fin Cert.ReferenceIdeal.S512x128.rank) ∈ Cert.ReferenceIdeal.scatter_S512x128_S100000x1_S100000x128_1_0_0_1.scatterDimsToOperandDims by decide)]

theorem poolWindow_0 (n : Fin 100000) (c : Fin 128) :
    Cert.ReferenceIdeal.scatter_S512x128_S100000x1_S100000x128_1_0_0_1.window (ix2 n c) 0 = 0 := by
  unfold ScatterDims.window
  rw [dif_neg (show ¬(0 : Fin Cert.ReferenceIdeal.S512x128.rank) ∈ Cert.ReferenceIdeal.scatter_S512x128_S100000x1_S100000x128_1_0_0_1.sKept by decide)]

theorem poolWindow_1 (n : Fin 100000) (c : Fin 128) :
    Cert.ReferenceIdeal.scatter_S512x128_S100000x1_S100000x128_1_0_0_1.window (ix2 n c) 1 = c.val := by
  unfold ScatterDims.window
  rw [dif_pos (show (1 : Fin Cert.ReferenceIdeal.S512x128.rank) ∈ Cert.ReferenceIdeal.scatter_S512x128_S100000x1_S100000x128_1_0_0_1.sKept by decide)]
  rfl

theorem poolLands_iff (ids : IVec Cert.ReferenceIdeal.S100000x1 32) (n : Fin 100000) (c : Fin 128) (g : Fin 512) (f : Fin 128) :
    Cert.ReferenceIdeal.scatter_S512x128_S100000x1_S100000x128_1_0_0_1.resultIdx? (ix2 n c) ids = some (ix2 g f) ↔ ids (ix2 n 0) = BitVec.ofNat 32 g.val ∧ c = f := by
  rw [resultIdx?_eq_some_iff]
  constructor
  · intro hall
    have h0 := hall 0
    have h1 := hall 1
    rw [poolStart_0, poolWindow_0] at h0
    rw [poolStart_1, poolWindow_1] at h1
    refine ⟨BitVec.toInt_inj.1 ?_, Fin.ext ?_⟩
    · rw [toInt_ofNat_graph]
      have : (ids (ix2 n 0)).toInt + ((0 : ℕ) : Int) = (g.val : Int) := h0
      omega
    · have : (0 : Int) + (c.val : Int) = (f.val : Int) := h1
      omega
  · rintro ⟨hid, rfl⟩ a
    match a with
    | ⟨0, _⟩ =>
      show Cert.ReferenceIdeal.scatter_S512x128_S100000x1_S100000x128_1_0_0_1.start (ix2 n c) ids 0 + (Cert.ReferenceIdeal.scatter_S512x128_S100000x1_S100000x128_1_0_0_1.window (ix2 n c) 0 : Int) = (g.val : Int)
      rw [poolStart_0, poolWindow_0, hid, toInt_ofNat_graph]; simp
    | ⟨1, _⟩ =>
      show Cert.ReferenceIdeal.scatter_S512x128_S100000x1_S100000x128_1_0_0_1.start (ix2 n c) ids 1 + (Cert.ReferenceIdeal.scatter_S512x128_S100000x1_S100000x128_1_0_0_1.window (ix2 n c) 1 : Int) = (c.val : Int)
      rw [poolStart_1, poolWindow_1]; simp

theorem pool4_apply (hh : Cert.ReferenceIdeal.Spec.Arr (F := Ideal) Cert.ReferenceIdeal.S100000x128)
    (ids : (⟨Cert.ReferenceIdeal.S100000x1, .i32⟩ : BufTy).Contents (Elt Ideal)) (g : Fin 512) (f : Fin 128) :
    Cert.ReferenceIdeal.Spec.pool4 (F := Ideal) hh ids (ix2 g f)
      = ∑ n : Fin 100000, (if ids (ix2 n 0) = BitVec.ofNat 32 g.val then hh (ix2 n f) else 0) := by
  unfold Cert.ReferenceIdeal.Spec.pool4
  show Ideal.ofBits .f32 0x00000000#32 + ∑ j ∈ Finset.univ.filter (fun j => Cert.ReferenceIdeal.scatter_S512x128_S100000x1_S100000x128_1_0_0_1.resultIdx? j ids = some (ix2 g f)), hh j = _
  rw [Ideal.ofBits_zero_f32, zero_add, Finset.sum_filter]
  refine (sum_idx2 _).trans ?_
  refine Finset.sum_congr rfl fun n _ => ?_
  simp only [poolLands_iff]
  by_cases hP : ids (ix2 n 0) = BitVec.ofNat 32 g.val
  · simp only [hP, true_and, if_true]
    rw [Finset.sum_ite_eq']
    simp
  · simp [hP]

theorem sum_rows_tiles {M : Type*} [AddCommMonoid M] (φ : ℕ → M) :
    ∑ n : Fin 100000, φ n.val = ∑ t : Fin 20, ∑ r : Fin 5000, φ (5000 * t.val + r.val) := by
  show ∑ n : Fin (20 * 5000), φ n.val = _
  rw [← Equiv.sum_comp (finProdFinEquiv (m := 20) (n := 5000)) (fun n : Fin (20 * 5000) => φ n.val), Fintype.sum_prod_type]
  refine Finset.sum_congr rfl fun t _ => Finset.sum_congr rfl fun r _ => ?_
  refine congrArg φ ?_
  show r.val + 5000 * t.val = _
  omega

end Cert.KernelIdeal.Frm

end
-- ==== Proof.KI.V4.lean ====
import proofs.«422229_j59227599011891_1_alg».proof.Proof.KI.R4
import proofs.«422229_j59227599011891_1_alg».proof.Proof.KI.PoolMath
import proofs.«422229_j59227599011891_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem r4_zero : (![0, 0] : Fin 2 → Nat) = fun _ => 0 := funext fun a => by fin_cases a <;> rfl

abbrev feat4 (c : Dev nD) : Vec Ideal S100000x128 .f32 := V c main_v57
abbrev gid4 (c : Dev nD) : Vec Ideal S100000x1 .i32 := V c main_v58

abbrev featBlk4 (c : Dev nD) (t : Fin cfg4.N) : Vec Ideal S5000x128 .f32 := iblk4 V c 0 t
abbrev gidBlk4 (c : Dev nD) (t : Fin cfg4.N) : Vec Ideal S5000x1 .i32 := iblk4 V c 1 t

theorem win4_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0 :=
  (by decide +kernel : ∀ t : Fin grid4.N, _)

theorem featBlk4_apply (c : Dev nD) (t : Fin cfg4.N) (r : Fin 5000) (f : Fin 128) (n : Fin 100000) (hn : n.val = 5000 * t.val + r.val) :
    featBlk4 V c t (ix2 r f) = feat4 V c (ix2 n f) := by
  obtain ⟨e0, e1, e2, e3, e4, e5⟩ := win4_facts t
  show V c main_v57 (((cfg4.win 0).blk t).view.emb (ix2 r f)) = V c main_v57 (ix2 n f)
  refine congrArg _ (funext fun a => Fin.ext ?_)
  match a with
  | ⟨0, _⟩ => show win4_0.index t (0 : Fin 2) * 5000 + 1 * r.val = n.val; omega
  | ⟨1, _⟩ => show win4_0.index t (1 : Fin 2) * 128 + 1 * f.val = f.val; omega

theorem gidBlk4_apply (c : Dev nD) (t : Fin cfg4.N) (r : Fin 5000) (n : Fin 100000) (hn : n.val = 5000 * t.val + r.val) :
    gidBlk4 V c t (ix2 r 0) = gid4 V c (ix2 n 0) := by
  obtain ⟨e0, e1, e2, e3, e4, e5⟩ := win4_facts t
  show V c main_v58 (((cfg4.win 1).blk t).view.emb (ix2 r 0)) = V c main_v58 (ix2 n 0)
  refine congrArg _ (funext fun a => Fin.ext ?_)
  match a with
  | ⟨0, _⟩ => show win4_1.index t (0 : Fin 2) * 5000 + 1 * r.val = n.val; omega
  | ⟨1, _⟩ => show win4_1.index t (1 : Fin 2) * 1 + 1 * 0 = 0; omega

def contrib4 (c : Dev nD) (g : Fin 512) (f : Fin 128) (m : ℕ) : EReal :=
  if h : m < 100000 then (if gid4 V c (ix2 ⟨m, h⟩ 0) = BitVec.ofNat 32 g.val then feat4 V c (ix2 ⟨m, h⟩ f) else 0) else 0

theorem tile4_sum (c : Dev nD) (t : Fin cfg4.N) (g : Fin 512) (f : Fin 128) :
    ∑ r : Fin 5000, (if gidBlk4 V c t (ix2 r 0) = BitVec.ofNat 32 g.val then featBlk4 V c t (ix2 r f) else 0)
      = ∑ r : Fin 5000, contrib4 V c g f (5000 * t.val + r.val) := by
  have ht : t.val < 20 := t.isLt
  refine Finset.sum_congr rfl fun r _ => ?_
  have hr : r.val < 5000 := r.isLt
  have hm : 5000 * t.val + r.val < 100000 := by omega
  unfold contrib4
  rw [dif_pos hm, gidBlk4_apply V c t r ⟨5000 * t.val + r.val, hm⟩ rfl, featBlk4_apply V c t r f ⟨5000 * t.val + r.val, hm⟩ rfl]

theorem acc4_apply (c : Dev nD) (g : Fin 512) (f : Fin 128) : ∀ (n : ℕ) (hn : n < cfg4.N),
    acc4 V c n hn (ix2 g f) = ∑ t ∈ Finset.range (n + 1), ∑ r : Fin 5000, contrib4 V c g f (5000 * t + r.val)
  | 0, hn => by
    rw [acc4_zero, View.ld_unit_zero (S := S5000x1) r4_zero, View.ld_unit_zero (S := S5000x128) r4_zero, k4_pay2_apply, k4_pay1_apply, zero_add,
      Finset.sum_range_one]
    exact tile4_sum V c ⟨0, hn⟩ g f
  | n + 1, hn => by
    rw [acc4_succ, View.ld_unit_zero (S := S5000x1) r4_zero, View.ld_unit_zero (S := S5000x128) r4_zero, k4_pay2_apply,
      acc4_apply c g f n (Nat.lt_of_succ_lt hn), Finset.sum_range_succ _ (n + 1)]
    exact congrArg _ (tile4_sum V c ⟨n + 1, hn⟩ g f)

theorem acc4_last (c : Dev nD) (hn : 19 < cfg4.N) :
    acc4 V c 19 hn = Cert.ReferenceIdeal.Spec.pool4 (F := Ideal) (V c main_v57) (V c main_v58) := by
  funext y
  obtain ⟨g, f, rfl⟩ : ∃ (g : Fin 512) (f : Fin 128), y = ix2 g f := ⟨y 0, y 1, eq_ix2 y⟩
  rw [acc4_apply, pool4_apply]
  rw [← Fin.sum_univ_eq_sum_range (fun t => ∑ r : Fin 5000, contrib4 V c g f (5000 * t + r.val)) 20]
  rw [← sum_rows_tiles (contrib4 V c g f)]
  refine Finset.sum_congr rfl fun n _ => ?_
  unfold contrib4
  rw [dif_pos n.isLt]

theorem win4_mem_blk (t : Fin cfg4.N) (i : S512x128.Idx) :
    i ∈ ((cfg4.win 2).blk t).view.set ↔ ∀ a : Fin 2, win4_2.index t a * S512x128.size a ≤ (i a).val ∧ (i a).val < win4_2.index t a * S512x128.size a + S512x128.size a := by
  show i ∈ ((View.whole main_v59).slice (win4_2.rect t)).set ↔ _
  rw [View.set_slice_whole, Rect.mem_set_unit]
  exact Iff.rfl

theorem flushed4_eq (c : Dev nD) (t : Fin cfg4.N) (hf : (cfg4.win 2).flush t = true) :
    (dat4 (F := Ideal) V c).flushed 2 t = ((cfg4.win 2).blk t).view.read (Elt Ideal)
      (Cert.ReferenceIdeal.Spec.pool4 (F := Ideal) (V c main_v57) (V c main_v58)) := by
  have ht : t.val < 20 := t.isLt
  have h19 : t.val = 19 := by have := (flush4_2 t).1 hf; omega
  obtain ⟨e0, e1, e2, e3, e4, e5⟩ := win4_facts t
  show (cfg4.win 2).cut (grid4.coords t) ((dat4 (F := Ideal) V c).after 2 t) = _
  rw [after4_2]
  obtain ⟨tv, htv⟩ := t
  subst h19
  funext y
  show acc4 V c 19 htv y = Cert.ReferenceIdeal.Spec.pool4 (F := Ideal) (V c main_v57) (V c main_v58) (((cfg4.win 2).blk ⟨19, htv⟩).view.emb y)
  rw [acc4_last]
  refine congrArg _ (funext fun a => Fin.ext ?_)
  match a with
  | ⟨0, _⟩ => show (y 0).val = win4_2.index ⟨19, htv⟩ (0 : Fin 2) * 512 + 1 * (y 0).val; omega
  | ⟨1, _⟩ => show (y 1).val = win4_2.index ⟨19, htv⟩ (1 : Fin 2) * 128 + 1 * (y 1).val; omega

theorem cover4_arr (i : S512x128.Idx) :
    ∃ t : Fin cfg4.N, (cfg4.win 2).flush t = true ∧ i ∈ ((cfg4.win 2).blk t).view.set := by
  have hi0 : (i 0).val < 512 := (i 0).isLt
  have hi1 : (i 1).val < 128 := (i 1).isLt
  obtain ⟨e0, e1, e2, e3, e4, e5⟩ := win4_facts ⟨19, by decide⟩
  refine ⟨⟨19, by decide⟩, (flush4_2 _).2 (by decide), ?_⟩
  rw [win4_mem_blk]
  intro a
  match a with
  | ⟨0, _⟩ => show win4_2.index ⟨19, _⟩ (0 : Fin 2) * 512 ≤ (i 0).val ∧ (i 0).val < win4_2.index ⟨19, _⟩ (0 : Fin 2) * 512 + 512; omega
  | ⟨1, _⟩ => show win4_2.index ⟨19, _⟩ (1 : Fin 2) * 128 ≤ (i 1).val ∧ (i 1).val < win4_2.index ⟨19, _⟩ (1 : Fin 2) * 128 + 128; omega

theorem final4 (c : Dev nD) :
    (dat4 (F := Ideal) V c).arrAt 2 cfg4.N = Cert.ReferenceIdeal.Spec.pool4 (F := Ideal) (V c main_v57) (V c main_v58) :=
  (dat4 (F := Ideal) V c).arrAt_eq_of_cover 2 (Cert.ReferenceIdeal.Spec.pool4 (F := Ideal) (V c main_v57) (V c main_v58))
    (fun t hf => flushed4_eq V c t hf) cover4_arr

end Cert.KernelIdeal.Frm

end
-- ==== Proof.KI.MlpMath.lean ====
import proofs.«422229_j59227599011891_1_alg».proof.Proof.Gen.KernelIdeal.Skeleton
import proofs.«422229_j59227599011891_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.StableHlo Idealize.ShloMosaic.ValueIdx
open Idealize.SL.Sem

theorem mm_eq {sl sr so : Shape} (d : DotDims sl sr so) (x : FVec Ideal sl .f32) (w : FVec Ideal sr .f32)
    (h : FTy.bits .bf16 < FTy.bits .f32) :
    matmul (F := Ideal) d none (truncf .bf16 x h) (truncf .bf16 w h) (constant (F := Ideal) so .f32 0x00000000#32)
      = Host.dotGeneral (F := Ideal) d none x w := by
  funext j
  show FloatOps.matmul d none (truncf .bf16 x h) (truncf .bf16 w h) (constant (F := Ideal) so .f32 0x00000000#32) j
    = FloatOps.dotGeneral d none _ x w j
  rw [Ideal.matmul_constant_zero_apply, Ideal.dotGeneral_apply]
  rfl

theorem bias_eq {α : Type} {m n : Nat} (b : (⟨2, ![1, n]⟩ : Shape).Idx → α)
    (hsc : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ b hsc) hb = broadcastInDim ⟨2, ![m, n]⟩ ![0, 1] hd b := by
  rw [shapeCast_self]
  funext i
  have hlt : (i 1).val < n := (i 1).isLt
  have e1 := broadcastTo_apply b hb i (ix2 (0 : Fin 1) (i 1 : Fin n)) (by
    intro a
    match a with
    | ⟨0, _⟩ => rfl
    | ⟨1, _⟩ =>
      show (i 1).val = if n = 1 then 0 else (i 1).val
      split
      · omega
      · rfl)
  have e2 := broadcastInDim_apply ![0, 1] hd b i (ix2 (0 : Fin 1) (i 1 : Fin n)) (by
    intro a
    match a with
    | ⟨0, _⟩ => rfl
    | ⟨1, _⟩ =>
      show (i 1).val = if n = 1 then 0 else (i 1).val
      split
      · omega
      · rfl)
  exact e1.trans e2.symm

theorem zero_eq {t : Shape} (hz : S_.BroadcastsInDim t (![] : Fin 0 → Fin t.rank)) :
    broadcast t (Scalar.ofBits (F := Ideal) .f32 0x00000000#32)
      = broadcastInDim t ![] hz (constant (F := Ideal) S_ .f32 0x00000000#32) := by
  funext j; rfl

theorem layer_lin {k m n : Nat} (d : DotDims ⟨2, ![m, k]⟩ ⟨2, ![k, n]⟩ ⟨2, ![m, n]⟩)
    (x : FVec Ideal ⟨2, ![m, k]⟩ .f32) (w : FVec Ideal ⟨2, ![k, n]⟩ .f32) (b : FVec Ideal ⟨2, ![1, n]⟩ .f32)
    (h : FTy.bits .bf16 < FTy.bits .f32)
    (hsc : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    addf (matmul (F := Ideal) d none (truncf .bf16 x h) (truncf .bf16 w h) (constant (F := Ideal) ⟨2, ![m, n]⟩ .f32 0x00000000#32))
        (broadcastTo ⟨2, ![m, n]⟩ (shapeCast ⟨2, ![1, n]⟩ b hsc) hb)
      = addf (Host.dotGeneral (F := Ideal) d none x w) (broadcastInDim ⟨2, ![m, n]⟩ ![0, 1] hd b) := by
  rw [mm_eq, bias_eq b hsc hb hd]

theorem layer_relu {k m n : Nat} (d : DotDims ⟨2, ![m, k]⟩ ⟨2, ![k, n]⟩ ⟨2, ![m, n]⟩)
    (x : FVec Ideal ⟨2, ![m, k]⟩ .f32) (w : FVec Ideal ⟨2, ![k, n]⟩ .f32) (b : FVec Ideal ⟨2, ![1, n]⟩ .f32)
    (h : FTy.bits .bf16 < FTy.bits .f32)
    (hsc : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1])
    (hz : S_.BroadcastsInDim ⟨2, ![m, n]⟩ (![] : Fin 0 → Fin (⟨2, ![m, n]⟩ : Shape).rank)) :
    maximumf (addf (matmul (F := Ideal) d none (truncf .bf16 x h) (truncf .bf16 w h) (constant (F := Ideal) ⟨2, ![m, n]⟩ .f32 0x00000000#32))
        (broadcastTo ⟨2, ![m, n]⟩ (shapeCast ⟨2, ![1, n]⟩ b hsc) hb))
        (broadcast ⟨2, ![m, n]⟩ (Scalar.ofBits (F := Ideal) .f32 0x00000000#32))
      = maximumf (addf (Host.dotGeneral (F := Ideal) d none x w) (broadcastInDim ⟨2, ![m, n]⟩ ![0, 1] hd b))
        (broadcastInDim ⟨2, ![m, n]⟩ ![] hz (constant (F := Ideal) S_ .f32 0x00000000#32)) := by
  rw [layer_lin d x w b h hsc hb hd, zero_eq hz]

theorem dot1_eq : (dot_S512x128_S128x512_S512x512_1_0_0_1_n_n : DotDims S512x128 S128x512 S512x512)
    = Cert.ReferenceIdeal.dot_S512x128_S128x512_S512x512_1_0_0_1_n_n := rfl
theorem dot2_eq : (dot_S512x512_S512x256_S512x256_1_0_0_1_n_n : DotDims S512x512 S512x256 S512x256)
    = Cert.ReferenceIdeal.dot_S512x512_S512x256_S512x256_1_0_0_1_n_n := rfl
theorem dot3_eq : (dot_S512x256_S256x128_S512x128_1_0_0_1_n_n : DotDims S512x256 S256x128 S512x128)
    = Cert.ReferenceIdeal.dot_S512x256_S256x128_S512x128_1_0_0_1_n_n := rfl
theorem dot4_eq : (dot_S512x128_S128x64_S512x64_1_0_0_1_n_n : DotDims S512x128 S128x64 S512x64)
    = Cert.ReferenceIdeal.dot_S512x128_S128x64_S512x64_1_0_0_1_n_n := rfl
theorem dot5_eq : (dot_S512x64_S64x1_S512x1_1_0_0_1_n_n : DotDims S512x64 S64x1 S512x1)
    = Cert.ReferenceIdeal.dot_S512x64_S64x1_S512x1_1_0_0_1_n_n := rfl

theorem mlp_pay (x0 : Vec Ideal S512x128 .f32) (x1 : Vec Ideal S128x512 .f32) (x2 : Vec Ideal S1x512 .f32)
    (x3 : Vec Ideal S512x256 .f32) (x4 : Vec Ideal S1x256 .f32) (x5 : Vec Ideal S256x128 .f32) (x6 : Vec Ideal S1x128 .f32)
    (x7 : Vec Ideal S128x64 .f32) (x8 : Vec Ideal S1x64 .f32) (x9 : Vec Ideal S64x1 .f32) (x10 : Vec Ideal S1x1 .f32) :
    k5_pay1 (F := Ideal) (k5_pay2 (F := Ideal) x0 x1 x2 x3 x4 x5 x6 x7) x8 x9 x10
      = Cert.ReferenceIdeal.Spec.mlp5 (F := Ideal) x0 x1 x2 x3 x4 x5 x6 x7 x8 x9 x10 := by
  unfold k5_pay1 k5_pay2 Cert.ReferenceIdeal.Spec.mlp5
  dsimp only
  rw [dot1_eq, dot2_eq, dot3_eq, dot4_eq, dot5_eq, shapeCast_self x0]
  rw [layer_lin Cert.ReferenceIdeal.dot_S512x128_S128x512_S512x512_1_0_0_1_n_n x0 x1 x2 bitsLt_bf16_f32
    shapeCasts_S1x512_S1x512 broadcasts_S1x512_S512x512 Cert.ReferenceIdeal.Gen.bcast_S1x512_S512x512_0_1]
  rw [layer_relu Cert.ReferenceIdeal.dot_S512x512_S512x256_S512x256_1_0_0_1_n_n _ x3 x4 bitsLt_bf16_f32
    shapeCasts_S1x256_S1x256 broadcasts_S1x256_S512x256 Cert.ReferenceIdeal.Gen.bcast_S1x256_S512x256_0_1
    Cert.ReferenceIdeal.Gen.bcast_S_S512x256]
  rw [layer_relu Cert.ReferenceIdeal.dot_S512x256_S256x128_S512x128_1_0_0_1_n_n _ x5 x6 bitsLt_bf16_f32
    shapeCasts_S1x128_S1x128 broadcasts_S1x128_S512x128 Cert.ReferenceIdeal.Gen.bcast_S1x128_S512x128_0_1
    Cert.ReferenceIdeal.Gen.bcast_S_S512x128]
  rw [layer_relu Cert.ReferenceIdeal.dot_S512x128_S128x64_S512x64_1_0_0_1_n_n _ x7 x8 bitsLt_bf16_f32
    shapeCasts_S1x64_S1x64 broadcasts_S1x64_S512x64 Cert.ReferenceIdeal.Gen.bcast_S1x64_S512x64_0_1
    Cert.ReferenceIdeal.Gen.bcast_S_S512x64]
  rw [layer_lin Cert.ReferenceIdeal.dot_S512x64_S64x1_S512x1_1_0_0_1_n_n _ x9 x10 bitsLt_bf16_f32
    shapeCasts_S1x1_S1x1 broadcasts_S1x1_S512x1 Cert.ReferenceIdeal.Gen.bcast_S1x1_S512x1_0_1]

end Cert.KernelIdeal.Frm

end
-- ==== Proof.KI.V5.lean ====
import proofs.«422229_j59227599011891_1_alg».proof.Proof.KI.R5
import proofs.«422229_j59227599011891_1_alg».proof.Proof.KI.MlpMath
import proofs.«422229_j59227599011891_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem hz5 : (![0, 0] : Fin 2 → Nat) = fun _ => 0 := funext fun a => by fin_cases a <;> rfl

theorem idx5_0 (t : Fin cfg5.N) (a : Fin 2) : win5_0.index t a = 0 := by fin_cases a <;> rfl
theorem idx5_1 (t : Fin cfg5.N) (a : Fin 2) : win5_1.index t a = 0 := by fin_cases a <;> rfl
theorem idx5_2 (t : Fin cfg5.N) (a : Fin 2) : win5_2.index t a = 0 := by fin_cases a <;> rfl
theorem idx5_3 (t : Fin cfg5.N) (a : Fin 2) : win5_3.index t a = 0 := by fin_cases a <;> rfl
theorem idx5_4 (t : Fin cfg5.N) (a : Fin 2) : win5_4.index t a = 0 := by fin_cases a <;> rfl
theorem idx5_5 (t : Fin cfg5.N) (a : Fin 2) : win5_5.index t a = 0 := by fin_cases a <;> rfl
theorem idx5_6 (t : Fin cfg5.N) (a : Fin 2) : win5_6.index t a = 0 := by fin_cases a <;> rfl
theorem idx5_7 (t : Fin cfg5.N) (a : Fin 2) : win5_7.index t a = 0 := by fin_cases a <;> rfl
theorem idx5_8 (t : Fin cfg5.N) (a : Fin 2) : win5_8.index t a = 0 := by fin_cases a <;> rfl
theorem idx5_9 (t : Fin cfg5.N) (a : Fin 2) : win5_9.index t a = 0 := by fin_cases a <;> rfl
theorem idx5_10 (t : Fin cfg5.N) (a : Fin 2) : win5_10.index t a = 0 := by fin_cases a <;> rfl
theorem idx5_11 (t : Fin cfg5.N) (a : Fin 2) : win5_11.index t a = 0 := by fin_cases a <;> rfl

theorem whole5_0 (c : Dev nD) (t : Fin cfg5.N) : (iblk5 V c 0 t : Vec Ideal S512x128 .f32) = V c main_v68 := by
  funext j
  show V c main_v68 (((cfg5.win 0).blk t).view.emb j) = V c main_v68 j
  exact congrArg (V c main_v68) (funext fun a => Fin.ext (win5_0.rect_emb_val_of_index_zero t a (idx5_0 t a) j))
theorem whole5_1 (c : Dev nD) (t : Fin cfg5.N) : (iblk5 V c 1 t : Vec Ideal S128x512 .f32) = V c main_arg8 := by
  funext j
  show V c main_arg8 (((cfg5.win 1).blk t).view.emb j) = V c main_arg8 j
  exact congrArg (V c main_arg8) (funext fun a => Fin.ext (win5_1.rect_emb_val_of_index_zero t a (idx5_1 t a) j))
theorem whole5_2 (c : Dev nD) (t : Fin cfg5.N) : (iblk5 V c 2 t : Vec Ideal S1x512 .f32) = V c main_v69 := by
  funext j
  show V c main_v69 (((cfg5.win 2).blk t).view.emb j) = V c main_v69 j
  exact congrArg (V c main_v69) (funext fun a => Fin.ext (win5_2.rect_emb_val_of_index_zero t a (idx5_2 t a) j))
theorem whole5_3 (c : Dev nD) (t : Fin cfg5.N) : (iblk5 V c 3 t : Vec Ideal S512x256 .f32) = V c main_arg10 := by
  funext j
  show V c main_arg10 (((cfg5.win 3).blk t).view.emb j) = V c main_arg10 j
  exact congrArg (V c main_arg10) (funext fun a => Fin.ext (win5_3.rect_emb_val_of_index_zero t a (idx5_3 t a) j))
theorem whole5_4 (c : Dev nD) (t : Fin cfg5.N) : (iblk5 V c 4 t : Vec Ideal S1x256 .f32) = V c main_v70 := by
  funext j
  show V c main_v70 (((cfg5.win 4).blk t).view.emb j) = V c main_v70 j
  exact congrArg (V c main_v70) (funext fun a => Fin.ext (win5_4.rect_emb_val_of_index_zero t a (idx5_4 t a) j))
theorem whole5_5 (c : Dev nD) (t : Fin cfg5.N) : (iblk5 V c 5 t : Vec Ideal S256x128 .f32) = V c main_arg12 := by
  funext j
  show V c main_arg12 (((cfg5.win 5).blk t).view.emb j) = V c main_arg12 j
  exact congrArg (V c main_arg12) (funext fun a => Fin.ext (win5_5.rect_emb_val_of_index_zero t a (idx5_5 t a) j))
theorem whole5_6 (c : Dev nD) (t : Fin cfg5.N) : (iblk5 V c 6 t : Vec Ideal S1x128 .f32) = V c main_v71 := by
  funext j
  show V c main_v71 (((cfg5.win 6).blk t).view.emb j) = V c main_v71 j
  exact congrArg (V c main_v71) (funext fun a => Fin.ext (win5_6.rect_emb_val_of_index_zero t a (idx5_6 t a) j))
theorem whole5_7 (c : Dev nD) (t : Fin cfg5.N) : (iblk5 V c 7 t : Vec Ideal S128x64 .f32) = V c main_arg14 := by
  funext j
  show V c main_arg14 (((cfg5.win 7).blk t).view.emb j) = V c main_arg14 j
  exact congrArg (V c main_arg14) (funext fun a => Fin.ext (win5_7.rect_emb_val_of_index_zero t a (idx5_7 t a) j))
theorem whole5_8 (c : Dev nD) (t : Fin cfg5.N) : (iblk5 V c 8 t : Vec Ideal S1x64 .f32) = V c main_v72 := by
  funext j
  show V c main_v72 (((cfg5.win 8).blk t).view.emb j) = V c main_v72 j
  exact congrArg (V c main_v72) (funext fun a => Fin.ext (win5_8.rect_emb_val_of_index_zero t a (idx5_8 t a) j))
theorem whole5_9 (c : Dev nD) (t : Fin cfg5.N) : (iblk5 V c 9 t : Vec Ideal S64x1 .f32) = V c main_arg16 := by
  funext j
  show V c main_arg16 (((cfg5.win 9).blk t).view.emb j) = V c main_arg16 j
  exact congrArg (V c main_arg16) (funext fun a => Fin.ext (win5_9.rect_emb_val_of_index_zero t a (idx5_9 t a) j))
theorem whole5_10 (c : Dev nD) (t : Fin cfg5.N) : (iblk5 V c 10 t : Vec Ideal S1x1 .f32) = V c main_v73 := by
  funext j
  show V c main_v73 (((cfg5.win 10).blk t).view.emb j) = V c main_v73 j
  exact congrArg (V c main_v73) (funext fun a => Fin.ext (win5_10.rect_emb_val_of_index_zero t a (idx5_10 t a) j))

abbrev head5 (c : Dev nD) : Cert.ReferenceIdeal.Spec.Arr (F := Ideal) S512x1 :=
  Cert.ReferenceIdeal.Spec.mlp5 (F := Ideal) (V c main_v68) (V c main_arg8) (V c main_v69) (V c main_arg10) (V c main_v70) (V c main_arg12) (V c main_v71) (V c main_arg14) (V c main_v72) (V c main_arg16) (V c main_v73)

theorem flushed5_eq (c : Dev nD) (t : Fin cfg5.N) :
    (dat5 (F := Ideal) V c).flushed 11 t = ((cfg5.win 11).blk t).view.read (Elt Ideal) (head5 V c) := by
  show (cfg5.win 11).cut (grid5.coords t) ((dat5 V c).after 11 t) = _
  rw [after5_11]
  unfold out5_11
  rw [View.canon_unit_zero hz5]
  simp only [View.ld_unit_zero (S := S512x128) hz5, View.ld_unit_zero (S := S128x512) hz5, View.ld_unit_zero (S := S1x512) hz5, View.ld_unit_zero (S := S512x256) hz5, View.ld_unit_zero (S := S1x256) hz5, View.ld_unit_zero (S := S256x128) hz5, View.ld_unit_zero (S := S1x128) hz5, View.ld_unit_zero (S := S128x64) hz5, View.ld_unit_zero (S := S1x64) hz5, View.ld_unit_zero (S := S64x1) hz5, View.ld_unit_zero (S := S1x1) hz5]
  refine funext fun (j : S512x1.Idx) => ?_
  show k5_pay1 (k5_pay2 (iblk5 V c 0 t) (iblk5 V c 1 t) (iblk5 V c 2 t) (iblk5 V c 3 t) (iblk5 V c 4 t) (iblk5 V c 5 t) (iblk5 V c 6 t) (iblk5 V c 7 t)) (iblk5 V c 8 t) (iblk5 V c 9 t) (iblk5 V c 10 t) j
    = head5 V c (((cfg5.win 11).blk t).view.emb j)
  rw [whole5_0 V c t, whole5_1 V c t, whole5_2 V c t, whole5_3 V c t, whole5_4 V c t, whole5_5 V c t, whole5_6 V c t, whole5_7 V c t, whole5_8 V c t, whole5_9 V c t, whole5_10 V c t]
  rw [mlp_pay]
  exact congrArg (head5 V c) (funext fun a => Fin.ext (win5_11.rect_emb_val_of_index_zero t a (idx5_11 t a) j).symm)

theorem mem_blk5 (t : Fin cfg5.N) (i : S512x1.Idx) :
    i ∈ ((cfg5.win 11).blk t).view.set ↔ ∀ a : Fin 2, win5_11.index t a * S512x1.size a ≤ (i a).val
      ∧ (i a).val < win5_11.index t a * S512x1.size a + S512x1.size a := by
  show i ∈ ((View.whole main_v74).slice (win5_11.rect t)).set ↔ _
  rw [View.set_slice_whole, Rect.mem_set_unit]
  exact Iff.rfl

theorem cover5 (i : S512x1.Idx) :
    ∃ t : Fin cfg5.N, (cfg5.win 11).flush t = true ∧ i ∈ ((cfg5.win 11).blk t).view.set := by
  refine ⟨t5_0, flush5_11 _, ?_⟩
  rw [mem_blk5]
  intro a
  rw [idx5_11 t5_0 a]
  have := (i a).isLt
  omega

theorem final5 (c : Dev nD) :
    (dat5 (F := Ideal) V c).arrAt 11 cfg5.N = Cert.ReferenceIdeal.Spec.mlp5 (F := Ideal) (V c main_v68) (V c main_arg8) (V c main_v69) (V c main_arg10) (V c main_v70) (V c main_arg12) (V c main_v71) (V c main_arg14) (V c main_v72) (V c main_arg16) (V c main_v73) :=
  (dat5 (F := Ideal) V c).arrAt_eq_of_cover 11 (head5 V c) (fun t _ => flushed5_eq V c t) cover5

end Cert.KernelIdeal.Frm

end
-- ==== Proof.KI.HostRead.lean ====
import proofs.«422229_j59227599011891_1_alg».proof.Proof.Gen.KernelIdeal.Regions
import proofs.«422229_j59227599011891_1_alg».proof.Proof.Spec
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

abbrev FA (S : Shape) : Type := (⟨S, .f32⟩ : BufTy).Contents (Elt F)
abbrev IA (S : Shape) : Type := (⟨S, .i32⟩ : BufTy).Contents (Elt F)

def withLoops (e : IA (F := F) S600000) : IA (F := F) S700000 :=
  concatenate S700000 0 [⟨S600000, e⟩, ⟨S100000, iotaInDim S100000 32 0⟩] concatenates_S600000_S100000_S700000_d0

def wrapCol (v : IA (F := F) S700000) : IA (F := F) S700000x1 :=
  broadcastInDim S700000x1 ![0] bcast_S700000_S700000x1_0
    (select (cmpi .slt v (broadcastInDim S700000 ![] bcast_S_S700000 (constantI S_ 32 0#32)))
      (addi v (broadcastInDim S700000 ![] bcast_S_S700000 (constantI S_ 32 100000#32))) v)

def degree (col : IA (F := F) S700000) : FA (F := F) S100000 :=
  Host.scatterAdd scatter_S100000_S700000x1_S700000_n_0_0_1
    (broadcastInDim S100000 ![] bcast_S_S100000 (constant S_ .f32 0x00000000#32))
    (broadcastInDim S700000x1 ![0] bcast_S700000_S700000x1_0 col)
    (broadcastInDim S700000 ![] bcast_S_S700000 (constant S_ .f32 0x3F800000#32))

def invSqrtDeg (col : IA (F := F) S700000) : FA (F := F) S100000 :=
  select (cmpf .ogt (degree col) (broadcastInDim S100000 ![] bcast_S_S100000 (constant S_ .f32 0x00000000#32)))
    (Host.rsqrt (degree col))
    (broadcastInDim S100000 ![] bcast_S_S100000 (id (constant S_ .f32 0x00000000#32)))

def coefOf (dinv : FA (F := F) S100000) (row col : IA (F := F) S700000) : FA (F := F) S700000 :=
  mulf (Host.gather gather_S100000_S700000x1_S700000_n_0_n_n_0_1_1 dinv (wrapCol row))
    (Host.gather gather_S100000_S700000x1_S700000_n_0_n_n_0_1_1 dinv (wrapCol col))

def edgeCoef (row col : IA (F := F) S700000) : FA (F := F) S700000 := coefOf (invSqrtDeg col) row col

def agg64 (h : FA (F := F) S100000x64) (row col : IA (F := F) S700000) (w : FA (F := F) S700000) : FA (F := F) S100000x64 :=
  Host.scatterAdd scatter_S100000x64_S700000x1_S700000x64_1_0_0_1
    (broadcastInDim S100000x64 ![] bcast_S_S100000x64 (constant S_ .f32 0x00000000#32))
    (broadcastInDim S700000x1 ![0] bcast_S700000_S700000x1_0 col)
    (mulf (Host.gather gather_S100000x64_S700000x1_S700000x64_1_0_n_n_0_1_164 h (wrapCol row))
      (broadcastInDim S700000x64 ![0, 1] bcast_S700000x1_S700000x64_0_1 (broadcastInDim S700000x1 ![0] bcast_S700000_S700000x1_0 w)))

def agg128 (h : FA (F := F) S100000x128) (row col : IA (F := F) S700000) (w : FA (F := F) S700000) : FA (F := F) S100000x128 :=
  Host.scatterAdd scatter_S100000x128_S700000x1_S700000x128_1_0_0_1
    (broadcastInDim S100000x128 ![] bcast_S_S100000x128 (constant S_ .f32 0x00000000#32))
    (broadcastInDim S700000x1 ![0] bcast_S700000_S700000x1_0 col)
    (mulf (Host.gather gather_S100000x128_S700000x1_S700000x128_1_0_n_n_0_1_1128 h (wrapCol row))
      (broadcastInDim S700000x128 ![0, 1] bcast_S700000x1_S700000x128_0_1 (broadcastInDim S700000x1 ![0] bcast_S700000_S700000x1_0 w)))

def meanOf (g : FA (F := F) S512x128) (ids : IA (F := F) S100000) : FA (F := F) S512x128 :=
  Host.divf g (broadcastInDim S512x128 ![0, 1] bcast_S512x1_S512x128_0_1 (broadcastInDim S512x1 ![0] bcast_S512_S512x1_0
    (maximumf (Host.scatterAdd scatter_S512_S100000x1_S100000_n_0_0_1
        (broadcastInDim S512 ![] bcast_S_S512 (constant S_ .f32 0x00000000#32))
        (broadcastInDim S100000x1 ![0] bcast_S100000_S100000x1_0 ids)
        (broadcastInDim S100000 ![] bcast_S_S100000 (constant S_ .f32 0x3F800000#32)))
      (broadcastInDim S512 ![] bcast_S_S512 (constant S_ .f32 0x3F800000#32)))))

def relaid {S T : Shape} {e : EltTy} (h : S.ShapeCasts T) (b : (⟨S, e⟩ : BufTy).Contents (Elt F)) : (⟨T, e⟩ : BufTy).Contents (Elt F) :=
  fun i => shapeCast T b h i

section Stretches
variable (W : Valuation τ sig (Elt F))

theorem hostOps0_v1 : StableHlo.after hostOps0 W (Proc.devRef .tc main_v1) = withLoops (W main_arg1) := by
  after_results; rfl
theorem hostOps0_v2 : StableHlo.after hostOps0 W (Proc.devRef .tc main_v2) = withLoops (W main_arg2) := by
  after_results; rfl
theorem hostOps0_v8 : StableHlo.after hostOps0 W (Proc.devRef .tc main_v8)
    = cmpf .ogt (degree (withLoops (W main_arg2))) (broadcastInDim S100000 ![] bcast_S_S100000 (constant S_ .f32 0x00000000#32)) := by
  after_results; rfl
theorem hostOps0_v9 : StableHlo.after hostOps0 W (Proc.devRef .tc main_v9) = Host.rsqrt (degree (withLoops (W main_arg2))) := by
  after_results; rfl
theorem hostOps0_cst_2 : StableHlo.after hostOps0 W (Proc.devRef .tc main_cst_2) = constant S_ .f32 0x00000000#32 := by
  after_results

theorem hostOps0_1_v10 : StableHlo.after hostOps0_1 W (Proc.devRef .tc main_v10)
    = select (W main_v8) (W main_v9) (broadcastInDim S100000 ![] bcast_S_S100000 (id (W main_cst_2))) := by
  after_results; rfl

set_option maxHeartbeats 4000000 in
theorem hostOps0_2_v25 : StableHlo.after hostOps0_2 W (Proc.devRef .tc main_v25) = coefOf (W main_v10) (W main_v1) (W main_v2) := by
  after_results_simp; rfl

set_option maxHeartbeats 4000000 in
theorem hostOps1_v39 : StableHlo.after hostOps1 W (Proc.devRef .tc main_v39)
    = agg64 (W main_v26) (W main_v1) (W main_v2) (W main_v25) := by
  after_results_simp; rfl
theorem hostOps1_v40 : StableHlo.after hostOps1 W (Proc.devRef .tc main_v40) = relaid shapeCasts_S64_S1x64 (W main_arg5) := by
  after_results; rfl

set_option maxHeartbeats 4000000 in
theorem hostOps3_v55 : StableHlo.after hostOps3 W (Proc.devRef .tc main_v55)
    = agg128 (W main_v42) (W main_v1) (W main_v2) (W main_v25) := by
  after_results_simp; rfl
theorem hostOps3_v56 : StableHlo.after hostOps3 W (Proc.devRef .tc main_v56) = relaid shapeCasts_S128_S1x128 (W main_arg7) := by
  after_results; rfl

theorem hostOps4_v58 : StableHlo.after hostOps4 W (Proc.devRef .tc main_v58) = relaid shapeCasts_S100000_S100000x1 (W main_arg3) := by
  after_results; rfl

set_option maxHeartbeats 4000000 in
theorem hostOps5_v68 : StableHlo.after hostOps5 W (Proc.devRef .tc main_v68) = meanOf (W main_v59) (W main_arg3) := by
  after_results_simp; rfl
theorem hostOps5_v69 : StableHlo.after hostOps5 W (Proc.devRef .tc main_v69) = relaid shapeCasts_S512_S1x512 (W main_arg9) := by
  after_results; rfl
theorem hostOps5_v70 : StableHlo.after hostOps5 W (Proc.devRef .tc main_v70) = relaid shapeCasts_S256_S1x256 (W main_arg11) := by
  after_results; rfl
theorem hostOps5_v71 : StableHlo.after hostOps5 W (Proc.devRef .tc main_v71) = relaid shapeCasts_S128_S1x128 (W main_arg13) := by
  after_results; rfl
theorem hostOps5_v72 : StableHlo.after hostOps5 W (Proc.devRef .tc main_v72) = relaid shapeCasts_S64_S1x64 (W main_arg15) := by
  after_results; rfl
theorem hostOps5_v73 : StableHlo.after hostOps5 W (Proc.devRef .tc main_v73) = relaid shapeCasts_S1_S1x1 (W main_arg17) := by
  after_results; rfl

end Stretches

section Reads
variable (m : (ℓ : Loc nD τ sig) → Buf (Elt F) ℓ) (outs : Outs (F := F)) (c : Dev nD)

abbrev Untouched (r : Ref sig .tc) : Prop :=
  r ∉ hostOps0_W ∧ r ∉ hostOps0_1_W ∧ r ∉ hostOps0_2_W ∧ r ∉ ([main_v26] : List (Ref sig .tc)) ∧ r ∉ hostOps1_W
    ∧ r ∉ ([main_v41] : List (Ref sig .tc)) ∧ r ∉ ([main_v42] : List (Ref sig .tc)) ∧ r ∉ hostOps3_W
    ∧ r ∉ ([main_v57] : List (Ref sig .tc)) ∧ r ∉ hostOps4_W ∧ r ∉ ([main_v59] : List (Ref sig .tc)) ∧ r ∉ hostOps5_W

theorem V3_arg (r : Ref sig .tc) (h : Untouched r) : V3 m c r = V0 m c r := by
  rw [V3_of m c r h.2.2.1, V2_of m c r h.2.1, V1_of m c r h.1]
theorem V4_arg (r : Ref sig .tc) (h : Untouched r) : V4 m outs c r = V0 m c r := by
  rw [V4_of m outs c r h.2.2.2.1, V3_arg m c r h]
theorem V6_arg (r : Ref sig .tc) (h : Untouched r) : V6 m outs c r = V0 m c r := by
  rw [V6_of m outs c r h.2.2.2.2.2.1, V5_of m outs c r h.2.2.2.2.1, V4_arg m outs c r h]
theorem V7_arg (r : Ref sig .tc) (h : Untouched r) : V7 m outs c r = V0 m c r := by
  rw [V7_of m outs c r h.2.2.2.2.2.2.1, V6_arg m outs c r h]
theorem V9_arg (r : Ref sig .tc) (h : Untouched r) : V9 m outs c r = V0 m c r := by
  rw [V9_of m outs c r h.2.2.2.2.2.2.2.2.1, V8_of m outs c r h.2.2.2.2.2.2.2.1, V7_arg m outs c r h]
theorem V11_arg (r : Ref sig .tc) (h : Untouched r) : V11 m outs c r = V0 m c r := by
  rw [V11_of m outs c r h.2.2.2.2.2.2.2.2.2.2.1, V10_of m outs c r h.2.2.2.2.2.2.2.2.2.1, V9_arg m outs c r h]
theorem V12_arg (r : Ref sig .tc) (h : Untouched r) : V12 m outs c r = V0 m c r := by
  rw [V12_of m outs c r h.2.2.2.2.2.2.2.2.2.2.2, V11_arg m outs c r h]

def rowE : IA (F := F) S700000 := withLoops (V0 m c main_arg1)
def colE : IA (F := F) S700000 := withLoops (V0 m c main_arg2)
def coefE : FA (F := F) S700000 := edgeCoef (rowE m c) (colE m c)

theorem V3_v1 : V3 m c main_v1 = rowE m c := by
  rw [V3_of m c main_v1 (by decide), V2_of m c main_v1 (by decide)]; exact hostOps0_v1 (V0 m c)
theorem V3_v2 : V3 m c main_v2 = colE m c := by
  rw [V3_of m c main_v2 (by decide), V2_of m c main_v2 (by decide)]; exact hostOps0_v2 (V0 m c)
theorem V2_v10 : V2 m c main_v10 = invSqrtDeg (colE m c) := by
  have e8 : V1 m c main_v8 = _ := hostOps0_v8 (V0 m c)
  have e9 : V1 m c main_v9 = _ := hostOps0_v9 (V0 m c)
  have e2 : V1 m c main_cst_2 = _ := hostOps0_cst_2 (V0 m c)
  refine (hostOps0_1_v10 (V1 m c)).trans ?_
  rw [e8, e9, e2]; rfl
theorem V3_v25 : V3 m c main_v25 = coefE m c := by
  have e1 : V2 m c main_v1 = rowE m c := (V3_of m c main_v1 (by decide)).symm.trans (V3_v1 m c)
  have e2 : V2 m c main_v2 = colE m c := (V3_of m c main_v2 (by decide)).symm.trans (V3_v2 m c)
  refine (hostOps0_2_v25 (V2 m c)).trans ?_
  rw [V2_v10 m c, e1, e2]; rfl

abbrev EdgeKept (r : Ref sig .tc) : Prop :=
  r ∉ ([main_v26] : List (Ref sig .tc)) ∧ r ∉ hostOps1_W ∧ r ∉ ([main_v41] : List (Ref sig .tc)) ∧ r ∉ ([main_v42] : List (Ref sig .tc))
theorem V4_edge (r : Ref sig .tc) (h : EdgeKept r) : V4 m outs c r = V3 m c r := V4_of m outs c r h.1
theorem V7_edge (r : Ref sig .tc) (h : EdgeKept r) : V7 m outs c r = V3 m c r := by
  rw [V7_of m outs c r h.2.2.2, V6_of m outs c r h.2.2.1, V5_of m outs c r h.2.1, V4_of m outs c r h.1]

theorem read0_x : V3 m c main_arg0 = V0 m c main_arg0 := V3_arg m c main_arg0 (by decide)
theorem read0_w : V3 m c main_arg4 = V0 m c main_arg4 := V3_arg m c main_arg4 (by decide)

theorem read1_pre : V5 m outs c main_v39 = agg64 (outs 4 main_v26 c) (rowE m c) (colE m c) (coefE m c) := by
  have e26 : V4 m outs c main_v26 = outs 4 main_v26 c := Function.update_self ..
  have e1 : V4 m outs c main_v1 = rowE m c := (V4_edge m outs c main_v1 (by decide)).trans (V3_v1 m c)
  have e2 : V4 m outs c main_v2 = colE m c := (V4_edge m outs c main_v2 (by decide)).trans (V3_v2 m c)
  have e25 : V4 m outs c main_v25 = coefE m c := (V4_edge m outs c main_v25 (by decide)).trans (V3_v25 m c)
  refine (hostOps1_v39 (V4 m outs c)).trans ?_
  rw [e26, e1, e2, e25]
theorem read1_b : V5 m outs c main_v40 = relaid shapeCasts_S64_S1x64 (V0 m c main_arg5) := by
  refine (hostOps1_v40 (V4 m outs c)).trans ?_
  rw [V4_arg m outs c main_arg5 (by decide)]

theorem read2_h : V6 m outs c main_v41 = outs 6 main_v41 c := Function.update_self ..
theorem read2_w : V6 m outs c main_arg6 = V0 m c main_arg6 := V6_arg m outs c main_arg6 (by decide)

theorem read3_pre : V8 m outs c main_v55 = agg128 (outs 7 main_v42 c) (rowE m c) (colE m c) (coefE m c) := by
  have e42 : V7 m outs c main_v42 = outs 7 main_v42 c := Function.update_self ..
  have e1 : V7 m outs c main_v1 = rowE m c := (V7_edge m outs c main_v1 (by decide)).trans (V3_v1 m c)
  have e2 : V7 m outs c main_v2 = colE m c := (V7_edge m outs c main_v2 (by decide)).trans (V3_v2 m c)
  have e25 : V7 m outs c main_v25 = coefE m c := (V7_edge m outs c main_v25 (by decide)).trans (V3_v25 m c)
  refine (hostOps3_v55 (V7 m outs c)).trans ?_
  rw [e42, e1, e2, e25]
theorem read3_b : V8 m outs c main_v56 = relaid shapeCasts_S128_S1x128 (V0 m c main_arg7) := by
  refine (hostOps3_v56 (V7 m outs c)).trans ?_
  rw [V7_arg m outs c main_arg7 (by decide)]

theorem read4_h : V10 m outs c main_v57 = outs 9 main_v57 c :=
  (V10_of m outs c main_v57 (by decide)).trans (Function.update_self ..)
theorem read4_ids : V10 m outs c main_v58 = relaid shapeCasts_S100000_S100000x1 (V0 m c main_arg3) := by
  refine (hostOps4_v58 (V9 m outs c)).trans ?_
  rw [V9_arg m outs c main_arg3 (by decide)]

theorem read5_g : V12 m outs c main_v68 = meanOf (outs 11 main_v59 c) (V0 m c main_arg3) := by
  have e59 : V11 m outs c main_v59 = outs 11 main_v59 c := Function.update_self ..
  refine (hostOps5_v68 (V11 m outs c)).trans ?_
  rw [e59, V11_arg m outs c main_arg3 (by decide)]
theorem read5_wf : V12 m outs c main_arg8 = V0 m c main_arg8 := V12_arg m outs c main_arg8 (by decide)
theorem read5_wh0 : V12 m outs c main_arg10 = V0 m c main_arg10 := V12_arg m outs c main_arg10 (by decide)
theorem read5_wh1 : V12 m outs c main_arg12 = V0 m c main_arg12 := V12_arg m outs c main_arg12 (by decide)
theorem read5_wh2 : V12 m outs c main_arg14 = V0 m c main_arg14 := V12_arg m outs c main_arg14 (by decide)
theorem read5_wo : V12 m outs c main_arg16 = V0 m c main_arg16 := V12_arg m outs c main_arg16 (by decide)
theorem read5_bf : V12 m outs c main_v69 = relaid shapeCasts_S512_S1x512 (V0 m c main_arg9) := by
  refine (hostOps5_v69 (V11 m outs c)).trans ?_
  rw [V11_arg m outs c main_arg9 (by decide)]
theorem read5_bh0 : V12 m outs c main_v70 = relaid shapeCasts_S256_S1x256 (V0 m c main_arg11) := by
  refine (hostOps5_v70 (V11 m outs c)).trans ?_
  rw [V11_arg m outs c main_arg11 (by decide)]
theorem read5_bh1 : V12 m outs c main_v71 = relaid shapeCasts_S128_S1x128 (V0 m c main_arg13) := by
  refine (hostOps5_v71 (V11 m outs c)).trans ?_
  rw [V11_arg m outs c main_arg13 (by decide)]
theorem read5_bh2 : V12 m outs c main_v72 = relaid shapeCasts_S64_S1x64 (V0 m c main_arg15) := by
  refine (hostOps5_v72 (V11 m outs c)).trans ?_
  rw [V11_arg m outs c main_arg15 (by decide)]
theorem read5_bo : V12 m outs c main_v73 = relaid shapeCasts_S1_S1x1 (V0 m c main_arg17) := by
  refine (hostOps5_v73 (V11 m outs c)).trans ?_
  rw [V11_arg m outs c main_arg17 (by decide)]

end Reads

end Cert.KernelIdeal.Frm

end
-- ==== Proof.Ref.ReadP.lean ====
import proofs.«422229_j59227599011891_1_alg».proof.Proof.Ref.RunP
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- The reference program's host operations as stages: one definition per operation, in program order.
def val_main_v0 : (⟨S100000, .i32⟩ : BufTy).Contents (Elt F) :=
  iotaInDim S100000 32 0
def val_main_v1 (x1 : (⟨S600000, .i32⟩ : BufTy).Contents (Elt F)) : (⟨S700000, .i32⟩ : BufTy).Contents (Elt F) :=
  concatenate S700000 0 [⟨S600000, (x1)⟩, ⟨S100000, (val_main_v0 (F := F))⟩] concatenates_S600000_S100000_S700000_d0

def val_main_v2 (x2 : (⟨S600000, .i32⟩ : BufTy).Contents (Elt F)) : (⟨S700000, .i32⟩ : BufTy).Contents (Elt F) :=
  concatenate S700000 0 [⟨S600000, (x2)⟩, ⟨S100000, (val_main_v0 (F := F))⟩] concatenates_S600000_S100000_S700000_d0

def val_main_cst : (⟨S_, .f32⟩ : BufTy).Contents (Elt F) :=
  constant S_ .f32 0x3F800000#32
def val_main_v3 : (⟨S700000, .f32⟩ : BufTy).Contents (Elt F) :=
  broadcastInDim S700000 ![] bcast_S_S700000 (val_main_cst (F := F))
def val_main_cst_0 : (⟨S_, .f32⟩ : BufTy).Contents (Elt F) :=
  constant S_ .f32 0x00000000#32
def val_main_v4 : (⟨S100000, .f32⟩ : BufTy).Contents (Elt F) :=
  broadcastInDim S100000 ![] bcast_S_S100000 (val_main_cst_0 (F := F))
def val_main_v5 (x2 : (⟨S600000, .i32⟩ : BufTy).Contents (Elt F)) : (⟨S700000x1, .i32⟩ : BufTy).Contents (Elt F) :=
  broadcastInDim S700000x1 ![0] bcast_S700000_S700000x1_0 (val_main_v2 (F := F) x2)
def val_main_v6 (x2 : (⟨S600000, .i32⟩ : BufTy).Contents (Elt F)) : (⟨S100000, .f32⟩ : BufTy).Contents (Elt F) :=
  Host.scatterAdd scatter_S100000_S700000x1_S700000_n_0_0_1 (val_main_v4 (F := F)) (val_main_v5 (F := F) x2) (val_main_v3 (F := F))

def val_main_cst_1 : (⟨S_, .f32⟩ : BufTy).Contents (Elt F) :=
  constant S_ .f32 0x00000000#32
def val_main_v7 : (⟨S100000, .f32⟩ : BufTy).Contents (Elt F) :=
  broadcastInDim S100000 ![] bcast_S_S100000 (val_main_cst_1 (F := F))
def val_main_v8 (x2 : (⟨S600000, .i32⟩ : BufTy).Contents (Elt F)) : (⟨S100000, .i1⟩ : BufTy).Contents (Elt F) :=
  cmpf (F := F) .ogt (val_main_v6 (F := F) x2) (val_main_v7 (F := F))
def val_main_v9 (x2 : (⟨S600000, .i32⟩ : BufTy).Contents (Elt F)) : (⟨S100000, .f32⟩ : BufTy).Contents (Elt F) :=
  Host.rsqrt (val_main_v6 (F := F) x2)
def val_main_cst_2 : (⟨S_, .f32⟩ : BufTy).Contents (Elt F) :=
  constant S_ .f32 0x00000000#32
def val_main_call0_v0 : (⟨S_, .f32⟩ : BufTy).Contents (Elt F) :=
  id (val_main_cst_2 (F := F))
def val_main_call0_v1 : (⟨S100000, .f32⟩ : BufTy).Contents (Elt F) :=
  broadcastInDim S100000 ![] bcast_S_S100000 (val_main_call0_v0 (F := F))
def val_main_v10 (x2 : (⟨S600000, .i32⟩ : BufTy).Contents (Elt F)) : (⟨S100000, .f32⟩ : BufTy).Contents (Elt F) :=
  select (val_main_v8 (F := F) x2) (val_main_v9 (F := F) x2) (val_main_call0_v1 (F := F))
def val_main_v11 (x0 : (⟨S100000x128, .f32⟩ : BufTy).Contents (Elt F)) (x4 : (⟨S128x64, .f32⟩ : BufTy).Contents (Elt F)) : (⟨S100000x64, .f32⟩ : BufTy).Contents (Elt F) :=
  Host.dotGeneral dot_S100000x128_S128x64_S100000x64_1_0_0_1_n_n none (x0) (x4)
def val_main_c : (⟨S_, .i32⟩ : BufTy).Contents (Elt F) :=
  constantI S_ 32 0#32
def val_main_v12 : (⟨S700000, .i32⟩ : BufTy).Contents (Elt F) :=
  broadcastInDim S700000 ![] bcast_S_S700000 (val_main_c (F := F))
def val_main_v13 (x1 : (⟨S600000, .i32⟩ : BufTy).Contents (Elt F)) : (⟨S700000, .i1⟩ : BufTy).Contents (Elt F) :=
  cmpi .slt (val_main_v1 (F := F) x1) (val_main_v12 (F := F))
def val_main_c_3 : (⟨S_, .i32⟩ : BufTy).Contents (Elt F) :=
  constantI S_ 32 100000#32
def val_main_v14 : (⟨S700000, .i32⟩ : BufTy).Contents (Elt F) :=
  broadcastInDim S700000 ![] bcast_S_S700000 (val_main_c_3 (F := F))
def val_main_v15 (x1 : (⟨S600000, .i32⟩ : BufTy).Contents (Elt F)) : (⟨S700000, .i32⟩ : BufTy).Contents (Elt F) :=
  addi (val_main_v1 (F := F) x1) (val_main_v14 (F := F))
def val_main_v16 (x1 : (⟨S600000, .i32⟩ : BufTy).Contents (Elt F)) : (⟨S700000, .i32⟩ : BufTy).Contents (Elt F) :=
  select (val_main_v13 (F := F) x1) (val_main_v15 (F := F) x1) (val_main_v1 (F := F) x1)
def val_main_v17 (x1 : (⟨S600000, .i32⟩ : BufTy).Contents (Elt F)) : (⟨S700000x1, .i32⟩ : BufTy).Contents (Elt F) :=
  broadcastInDim S700000x1 ![0] bcast_S700000_S700000x1_0 (val_main_v16 (F := F) x1)
def val_main_v18 (x1 x2 : (⟨S600000, .i32⟩ : BufTy).Contents (Elt F)) : (⟨S700000, .f32⟩ : BufTy).Contents (Elt F) :=
  Host.gather gather_S100000_S700000x1_S700000_n_0_n_n_0_1_1 (val_main_v10 (F := F) x2) (val_main_v17 (F := F) x1)

def val_main_c_4 : (⟨S_, .i32⟩ : BufTy).Contents (Elt F) :=
  constantI S_ 32 0#32
def val_main_v19 : (⟨S700000, .i32⟩ : BufTy).Contents (Elt F) :=
  broadcastInDim S700000 ![] bcast_S_S700000 (val_main_c_4 (F := F))
def val_main_v20 (x2 : (⟨S600000, .i32⟩ : BufTy).Contents (Elt F)) : (⟨S700000, .i1⟩ : BufTy).Contents (Elt F) :=
  cmpi .slt (val_main_v2 (F := F) x2) (val_main_v19 (F := F))
def val_main_c_5 : (⟨S_, .i32⟩ : BufTy).Contents (Elt F) :=
  constantI S_ 32 100000#32
def val_main_v21 : (⟨S700000, .i32⟩ : BufTy).Contents (Elt F) :=
  broadcastInDim S700000 ![] bcast_S_S700000 (val_main_c_5 (F := F))
def val_main_v22 (x2 : (⟨S600000, .i32⟩ : BufTy).Contents (Elt F)) : (⟨S700000, .i32⟩ : BufTy).Contents (Elt F) :=
  addi (val_main_v2 (F := F) x2) (val_main_v21 (F := F))
def val_main_v23 (x2 : (⟨S600000, .i32⟩ : BufTy).Contents (Elt F)) : (⟨S700000, .i32⟩ : BufTy).Contents (Elt F) :=
  select (val_main_v20 (F := F) x2) (val_main_v22 (F := F) x2) (val_main_v2 (F := F) x2)
def val_main_v24 (x2 : (⟨S600000, .i32⟩ : BufTy).Contents (Elt F)) : (⟨S700000x1, .i32⟩ : BufTy).Contents (Elt F) :=
  broadcastInDim S700000x1 ![0] bcast_S700000_S700000x1_0 (val_main_v23 (F := F) x2)
def val_main_v25 (x2 : (⟨S600000, .i32⟩ : BufTy).Contents (Elt F)) : (⟨S700000, .f32⟩ : BufTy).Contents (Elt F) :=
  Host.gather gather_S100000_S700000x1_S700000_n_0_n_n_0_1_1 (val_main_v10 (F := F) x2) (val_main_v24 (F := F) x2)

def val_main_v26 (x1 x2 : (⟨S600000, .i32⟩ : BufTy).Contents (Elt F)) : (⟨S700000, .f32⟩ : BufTy).Contents (Elt F) :=
  mulf (val_main_v18 (F := F) x1 x2) (val_main_v25 (F := F) x2)
def val_main_v27 (x1 x2 : (⟨S600000, .i32⟩ : BufTy).Contents (Elt F)) : (⟨S700000x1, .f32⟩ : BufTy).Contents (Elt F) :=
  broadcastInDim S700000x1 ![0] bcast_S700000_S700000x1_0 (val_main_v26 (F := F) x1 x2)
def val_main_c_6 : (⟨S_, .i32⟩ : BufTy).Contents (Elt F) :=
  constantI S_ 32 0#32
def val_main_v28 : (⟨S700000, .i32⟩ : BufTy).Contents (Elt F) :=
  broadcastInDim S700000 ![] bcast_S_S700000 (val_main_c_6 (F := F))
def val_main_v29 (x1 : (⟨S600000, .i32⟩ : BufTy).Contents (Elt F)) : (⟨S700000, .i1⟩ : BufTy).Contents (Elt F) :=
  cmpi .slt (val_main_v1 (F := F) x1) (val_main_v28 (F := F))
def val_main_c_7 : (⟨S_, .i32⟩ : BufTy).Contents (Elt F) :=
  constantI S_ 32 100000#32
def val_main_v30 : (⟨S700000, .i32⟩ : BufTy).Contents (Elt F) :=
  broadcastInDim S700000 ![] bcast_S_S700000 (val_main_c_7 (F := F))
def val_main_v31 (x1 : (⟨S600000, .i32⟩ : BufTy).Contents (Elt F)) : (⟨S700000, .i32⟩ : BufTy).Contents (Elt F) :=
  addi (val_main_v1 (F := F) x1) (val_main_v30 (F := F))
def val_main_v32 (x1 : (⟨S600000, .i32⟩ : BufTy).Contents (Elt F)) : (⟨S700000, .i32⟩ : BufTy).Contents (Elt F) :=
  select (val_main_v29 (F := F) x1) (val_main_v31 (F := F) x1) (val_main_v1 (F := F) x1)
def val_main_v33 (x1 : (⟨S600000, .i32⟩ : BufTy).Contents (Elt F)) : (⟨S700000x1, .i32⟩ : BufTy).Contents (Elt F) :=
  broadcastInDim S700000x1 ![0] bcast_S700000_S700000x1_0 (val_main_v32 (F := F) x1)
def val_main_v34 (x0 : (⟨S100000x128, .f32⟩ : BufTy).Contents (Elt F)) (x1 : (⟨S600000, .i32⟩ : BufTy).Contents (Elt F)) (x4 : (⟨S128x64, .f32⟩ : BufTy).Contents (Elt F)) : (⟨S700000x64, .f32⟩ : BufTy).Contents (Elt F) :=
  Host.gather gather_S100000x64_S700000x1_S700000x64_1_0_n_n_0_1_164 (val_main_v11 (F := F) x0 x4) (val_main_v33 (F := F) x1)

def val_main_v35 (x1 x2 : (⟨S600000, .i32⟩ : BufTy).Contents (Elt F)) : (⟨S700000x64, .f32⟩ : BufTy).Contents (Elt F) :=
  broadcastInDim S700000x64 ![0, 1] bcast_S700000x1_S700000x64_0_1 (val_main_v27 (F := F) x1 x2)
def val_main_v36 (x0 : (⟨S100000x128, .f32⟩ : BufTy).Contents (Elt F)) (x1 x2 : (⟨S600000, .i32⟩ : BufTy).Contents (Elt F)) (x4 : (⟨S128x64, .f32⟩ : BufTy).Contents (Elt F)) : (⟨S700000x64, .f32⟩ : BufTy).Contents (Elt F) :=
  mulf (val_main_v34 (F := F) x0 x1 x4) (val_main_v35 (F := F) x1 x2)
def val_main_cst_8 : (⟨S_, .f32⟩ : BufTy).Contents (Elt F) :=
  constant S_ .f32 0x00000000#32
def val_main_v37 : (⟨S100000x64, .f32⟩ : BufTy).Contents (Elt F) :=
  broadcastInDim S100000x64 ![] bcast_S_S100000x64 (val_main_cst_8 (F := F))
def val_main_v38 (x2 : (⟨S600000, .i32⟩ : BufTy).Contents (Elt F)) : (⟨S700000x1, .i32⟩ : BufTy).Contents (Elt F) :=
  broadcastInDim S700000x1 ![0] bcast_S700000_S700000x1_0 (val_main_v2 (F := F) x2)
def val_main_v39 (x0 : (⟨S100000x128, .f32⟩ : BufTy).Contents (Elt F)) (x1 x2 : (⟨S600000, .i32⟩ : BufTy).Contents (Elt F)) (x4 : (⟨S128x64, .f32⟩ : BufTy).Contents (Elt F)) : (⟨S100000x64, .f32⟩ : BufTy).Contents (Elt F) :=
  Host.scatterAdd scatter_S100000x64_S700000x1_S700000x64_1_0_0_1 (val_main_v37 (F := F)) (val_main_v38 (F := F) x2) (val_main_v36 (F := F) x0 x1 x2 x4)

def val_main_v40 (x5 : (⟨S64, .f32⟩ : BufTy).Contents (Elt F)) : (⟨S1x64, .f32⟩ : BufTy).Contents (Elt F) :=
  broadcastInDim S1x64 ![1] bcast_S64_S1x64_1 (x5)
def val_main_v41 (x5 : (⟨S64, .f32⟩ : BufTy).Contents (Elt F)) : (⟨S100000x64, .f32⟩ : BufTy).Contents (Elt F) :=
  broadcastInDim S100000x64 ![0, 1] bcast_S1x64_S100000x64_0_1 (val_main_v40 (F := F) x5)
def val_main_v42 (x0 : (⟨S100000x128, .f32⟩ : BufTy).Contents (Elt F)) (x1 x2 : (⟨S600000, .i32⟩ : BufTy).Contents (Elt F)) (x4 : (⟨S128x64, .f32⟩ : BufTy).Contents (Elt F)) (x5 : (⟨S64, .f32⟩ : BufTy).Contents (Elt F)) : (⟨S100000x64, .f32⟩ : BufTy).Contents (Elt F) :=
  addf (val_main_v39 (F := F) x0 x1 x2 x4) (val_main_v41 (F := F) x5)
def val_main_call1_cst : (⟨S_, .f32⟩ : BufTy).Contents (Elt F) :=
  constant S_ .f32 0x00000000#32
def val_main_call1_v0 : (⟨S100000x64, .f32⟩ : BufTy).Contents (Elt F) :=
  broadcastInDim S100000x64 ![] bcast_S_S100000x64 (val_main_call1_cst (F := F))
def val_main_v43 (x0 : (⟨S100000x128, .f32⟩ : BufTy).Contents (Elt F)) (x1 x2 : (⟨S600000, .i32⟩ : BufTy).Contents (Elt F)) (x4 : (⟨S128x64, .f32⟩ : BufTy).Contents (Elt F)) (x5 : (⟨S64, .f32⟩ : BufTy).Contents (Elt F)) : (⟨S100000x64, .f32⟩ : BufTy).Contents (Elt F) :=
  maximumf (val_main_v42 (F := F) x0 x1 x2 x4 x5) (val_main_call1_v0 (F := F))
def val_main_v44 : (⟨S100000, .i32⟩ : BufTy).Contents (Elt F) :=
  iotaInDim S100000 32 0
def val_main_v45 (x1 : (⟨S600000, .i32⟩ : BufTy).Contents (Elt F)) : (⟨S700000, .i32⟩ : BufTy).Contents (Elt F) :=
  concatenate S700000 0 [⟨S600000, (x1)⟩, ⟨S100000, (val_main_v44 (F := F))⟩] concatenates_S600000_S100000_S700000_d0

def val_main_v46 (x2 : (⟨S600000, .i32⟩ : BufTy).Contents (Elt F)) : (⟨S700000, .i32⟩ : BufTy).Contents (Elt F) :=
  concatenate S700000 0 [⟨S600000, (x2)⟩, ⟨S100000, (val_main_v44 (F := F))⟩] concatenates_S600000_S100000_S700000_d0

def val_main_cst_9 : (⟨S_, .f32⟩ : BufTy).Contents (Elt F) :=
  constant S_ .f32 0x3F800000#32
def val_main_v47 : (⟨S700000, .f32⟩ : BufTy).Contents (Elt F) :=
  broadcastInDim S700000 ![] bcast_S_S700000 (val_main_cst_9 (F := F))
def val_main_cst_10 : (⟨S_, .f32⟩ : BufTy).Contents (Elt F) :=
  constant S_ .f32 0x00000000#32
def val_main_v48 : (⟨S100000, .f32⟩ : BufTy).Contents (Elt F) :=
  broadcastInDim S100000 ![] bcast_S_S100000 (val_main_cst_10 (F := F))
def val_main_v49 (x2 : (⟨S600000, .i32⟩ : BufTy).Contents (Elt F)) : (⟨S700000x1, .i32⟩ : BufTy).Contents (Elt F) :=
  broadcastInDim S700000x1 ![0] bcast_S700000_S700000x1_0 (val_main_v46 (F := F) x2)
def val_main_v50 (x2 : (⟨S600000, .i32⟩ : BufTy).Contents (Elt F)) : (⟨S100000, .f32⟩ : BufTy).Contents (Elt F) :=
  Host.scatterAdd scatter_S100000_S700000x1_S700000_n_0_0_1 (val_main_v48 (F := F)) (val_main_v49 (F := F) x2) (val_main_v47 (F := F))

def val_main_cst_11 : (⟨S_, .f32⟩ : BufTy).Contents (Elt F) :=
  constant S_ .f32 0x00000000#32
def val_main_v51 : (⟨S100000, .f32⟩ : BufTy).Contents (Elt F) :=
  broadcastInDim S100000 ![] bcast_S_S100000 (val_main_cst_11 (F := F))
def val_main_v52 (x2 : (⟨S600000, .i32⟩ : BufTy).Contents (Elt F)) : (⟨S100000, .i1⟩ : BufTy).Contents (Elt F) :=
  cmpf (F := F) .ogt (val_main_v50 (F := F) x2) (val_main_v51 (F := F))
def val_main_v53 (x2 : (⟨S600000, .i32⟩ : BufTy).Contents (Elt F)) : (⟨S100000, .f32⟩ : BufTy).Contents (Elt F) :=
  Host.rsqrt (val_main_v50 (F := F) x2)
def val_main_cst_12 : (⟨S_, .f32⟩ : BufTy).Contents (Elt F) :=
  constant S_ .f32 0x00000000#32
def val_main_call2_v0 : (⟨S_, .f32⟩ : BufTy).Contents (Elt F) :=
  id (val_main_cst_12 (F := F))
def val_main_call2_v1 : (⟨S100000, .f32⟩ : BufTy).Contents (Elt F) :=
  broadcastInDim S100000 ![] bcast_S_S100000 (val_main_call2_v0 (F := F))
def val_main_v54 (x2 : (⟨S600000, .i32⟩ : BufTy).Contents (Elt F)) : (⟨S100000, .f32⟩ : BufTy).Contents (Elt F) :=
  select (val_main_v52 (F := F) x2) (val_main_v53 (F := F) x2) (val_main_call2_v1 (F := F))
def val_main_v55 (x0 : (⟨S100000x128, .f32⟩ : BufTy).Contents (Elt F)) (x1 x2 : (⟨S600000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) : (⟨S100000x128, .f32⟩ : BufTy).Contents (Elt F) :=
  Host.dotGeneral dot_S100000x64_S64x128_S100000x128_1_0_0_1_n_n none (val_main_v43 (F := F) x0 x1 x2 x4 x5) (x6)
def val_main_c_13 : (⟨S_, .i32⟩ : BufTy).Contents (Elt F) :=
  constantI S_ 32 0#32
def val_main_v56 : (⟨S700000, .i32⟩ : BufTy).Contents (Elt F) :=
  broadcastInDim S700000 ![] bcast_S_S700000 (val_main_c_13 (F := F))
def val_main_v57 (x1 : (⟨S600000, .i32⟩ : BufTy).Contents (Elt F)) : (⟨S700000, .i1⟩ : BufTy).Contents (Elt F) :=
  cmpi .slt (val_main_v45 (F := F) x1) (val_main_v56 (F := F))
def val_main_c_14 : (⟨S_, .i32⟩ : BufTy).Contents (Elt F) :=
  constantI S_ 32 100000#32
def val_main_v58 : (⟨S700000, .i32⟩ : BufTy).Contents (Elt F) :=
  broadcastInDim S700000 ![] bcast_S_S700000 (val_main_c_14 (F := F))
def val_main_v59 (x1 : (⟨S600000, .i32⟩ : BufTy).Contents (Elt F)) : (⟨S700000, .i32⟩ : BufTy).Contents (Elt F) :=
  addi (val_main_v45 (F := F) x1) (val_main_v58 (F := F))
def val_main_v60 (x1 : (⟨S600000, .i32⟩ : BufTy).Contents (Elt F)) : (⟨S700000, .i32⟩ : BufTy).Contents (Elt F) :=
  select (val_main_v57 (F := F) x1) (val_main_v59 (F := F) x1) (val_main_v45 (F := F) x1)
def val_main_v61 (x1 : (⟨S600000, .i32⟩ : BufTy).Contents (Elt F)) : (⟨S700000x1, .i32⟩ : BufTy).Contents (Elt F) :=
  broadcastInDim S700000x1 ![0] bcast_S700000_S700000x1_0 (val_main_v60 (F := F) x1)
def val_main_v62 (x1 x2 : (⟨S600000, .i32⟩ : BufTy).Contents (Elt F)) : (⟨S700000, .f32⟩ : BufTy).Contents (Elt F) :=
  Host.gather gather_S100000_S700000x1_S700000_n_0_n_n_0_1_1 (val_main_v54 (F := F) x2) (val_main_v61 (F := F) x1)

def val_main_c_15 : (⟨S_, .i32⟩ : BufTy).Contents (Elt F) :=
  constantI S_ 32 0#32
def val_main_v63 : (⟨S700000, .i32⟩ : BufTy).Contents (Elt F) :=
  broadcastInDim S700000 ![] bcast_S_S700000 (val_main_c_15 (F := F))
def val_main_v64 (x2 : (⟨S600000, .i32⟩ : BufTy).Contents (Elt F)) : (⟨S700000, .i1⟩ : BufTy).Contents (Elt F) :=
  cmpi .slt (val_main_v46 (F := F) x2) (val_main_v63 (F := F))
def val_main_c_16 : (⟨S_, .i32⟩ : BufTy).Contents (Elt F) :=
  constantI S_ 32 100000#32
def val_main_v65 : (⟨S700000, .i32⟩ : BufTy).Contents (Elt F) :=
  broadcastInDim S700000 ![] bcast_S_S700000 (val_main_c_16 (F := F))
def val_main_v66 (x2 : (⟨S600000, .i32⟩ : BufTy).Contents (Elt F)) : (⟨S700000, .i32⟩ : BufTy).Contents (Elt F) :=
  addi (val_main_v46 (F := F) x2) (val_main_v65 (F := F))
def val_main_v67 (x2 : (⟨S600000, .i32⟩ : BufTy).Contents (Elt F)) : (⟨S700000, .i32⟩ : BufTy).Contents (Elt F) :=
  select (val_main_v64 (F := F) x2) (val_main_v66 (F := F) x2) (val_main_v46 (F := F) x2)
def val_main_v68 (x2 : (⟨S600000, .i32⟩ : BufTy).Contents (Elt F)) : (⟨S700000x1, .i32⟩ : BufTy).Contents (Elt F) :=
  broadcastInDim S700000x1 ![0] bcast_S700000_S700000x1_0 (val_main_v67 (F := F) x2)
def val_main_v69 (x2 : (⟨S600000, .i32⟩ : BufTy).Contents (Elt F)) : (⟨S700000, .f32⟩ : BufTy).Contents (Elt F) :=
  Host.gather gather_S100000_S700000x1_S700000_n_0_n_n_0_1_1 (val_main_v54 (F := F) x2) (val_main_v68 (F := F) x2)

def val_main_v70 (x1 x2 : (⟨S600000, .i32⟩ : BufTy).Contents (Elt F)) : (⟨S700000, .f32⟩ : BufTy).Contents (Elt F) :=
  mulf (val_main_v62 (F := F) x1 x2) (val_main_v69 (F := F) x2)
def val_main_v71 (x1 x2 : (⟨S600000, .i32⟩ : BufTy).Contents (Elt F)) : (⟨S700000x1, .f32⟩ : BufTy).Contents (Elt F) :=
  broadcastInDim S700000x1 ![0] bcast_S700000_S700000x1_0 (val_main_v70 (F := F) x1 x2)
def val_main_c_17 : (⟨S_, .i32⟩ : BufTy).Contents (Elt F) :=
  constantI S_ 32 0#32
def val_main_v72 : (⟨S700000, .i32⟩ : BufTy).Contents (Elt F) :=
  broadcastInDim S700000 ![] bcast_S_S700000 (val_main_c_17 (F := F))
def val_main_v73 (x1 : (⟨S600000, .i32⟩ : BufTy).Contents (Elt F)) : (⟨S700000, .i1⟩ : BufTy).Contents (Elt F) :=
  cmpi .slt (val_main_v45 (F := F) x1) (val_main_v72 (F := F))
def val_main_c_18 : (⟨S_, .i32⟩ : BufTy).Contents (Elt F) :=
  constantI S_ 32 100000#32
def val_main_v74 : (⟨S700000, .i32⟩ : BufTy).Contents (Elt F) :=
  broadcastInDim S700000 ![] bcast_S_S700000 (val_main_c_18 (F := F))
def val_main_v75 (x1 : (⟨S600000, .i32⟩ : BufTy).Contents (Elt F)) : (⟨S700000, .i32⟩ : BufTy).Contents (Elt F) :=
  addi (val_main_v45 (F := F) x1) (val_main_v74 (F := F))
def val_main_v76 (x1 : (⟨S600000, .i32⟩ : BufTy).Contents (Elt F)) : (⟨S700000, .i32⟩ : BufTy).Contents (Elt F) :=
  select (val_main_v73 (F := F) x1) (val_main_v75 (F := F) x1) (val_main_v45 (F := F) x1)
def val_main_v77 (x1 : (⟨S600000, .i32⟩ : BufTy).Contents (Elt F)) : (⟨S700000x1, .i32⟩ : BufTy).Contents (Elt F) :=
  broadcastInDim S700000x1 ![0] bcast_S700000_S700000x1_0 (val_main_v76 (F := F) x1)
def val_main_v78 (x0 : (⟨S100000x128, .f32⟩ : BufTy).Contents (Elt F)) (x1 x2 : (⟨S600000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) : (⟨S700000x128, .f32⟩ : BufTy).Contents (Elt F) :=
  Host.gather gather_S100000x128_S700000x1_S700000x128_1_0_n_n_0_1_1128 (val_main_v55 (F := F) x0 x1 x2 x4 x5 x6) (val_main_v77 (F := F) x1)

def val_main_v79 (x1 x2 : (⟨S600000, .i32⟩ : BufTy).Contents (Elt F)) : (⟨S700000x128, .f32⟩ : BufTy).Contents (Elt F) :=
  broadcastInDim S700000x128 ![0, 1] bcast_S700000x1_S700000x128_0_1 (val_main_v71 (F := F) x1 x2)
def val_main_v80 (x0 : (⟨S100000x128, .f32⟩ : BufTy).Contents (Elt F)) (x1 x2 : (⟨S600000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) : (⟨S700000x128, .f32⟩ : BufTy).Contents (Elt F) :=
  mulf (val_main_v78 (F := F) x0 x1 x2 x4 x5 x6) (val_main_v79 (F := F) x1 x2)
def val_main_cst_19 : (⟨S_, .f32⟩ : BufTy).Contents (Elt F) :=
  constant S_ .f32 0x00000000#32
def val_main_v81 : (⟨S100000x128, .f32⟩ : BufTy).Contents (Elt F) :=
  broadcastInDim S100000x128 ![] bcast_S_S100000x128 (val_main_cst_19 (F := F))
def val_main_v82 (x2 : (⟨S600000, .i32⟩ : BufTy).Contents (Elt F)) : (⟨S700000x1, .i32⟩ : BufTy).Contents (Elt F) :=
  broadcastInDim S700000x1 ![0] bcast_S700000_S700000x1_0 (val_main_v46 (F := F) x2)
def val_main_v83 (x0 : (⟨S100000x128, .f32⟩ : BufTy).Contents (Elt F)) (x1 x2 : (⟨S600000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) : (⟨S100000x128, .f32⟩ : BufTy).Contents (Elt F) :=
  Host.scatterAdd scatter_S100000x128_S700000x1_S700000x128_1_0_0_1 (val_main_v81 (F := F)) (val_main_v82 (F := F) x2) (val_main_v80 (F := F) x0 x1 x2 x4 x5 x6)

def val_main_v84 (x7 : (⟨S128, .f32⟩ : BufTy).Contents (Elt F)) : (⟨S1x128, .f32⟩ : BufTy).Contents (Elt F) :=
  broadcastInDim S1x128 ![1] bcast_S128_S1x128_1 (x7)
def val_main_v85 (x7 : (⟨S128, .f32⟩ : BufTy).Contents (Elt F)) : (⟨S100000x128, .f32⟩ : BufTy).Contents (Elt F) :=
  broadcastInDim S100000x128 ![0, 1] bcast_S1x128_S100000x128_0_1 (val_main_v84 (F := F) x7)
def val_main_v86 (x0 : (⟨S100000x128, .f32⟩ : BufTy).Contents (Elt F)) (x1 x2 : (⟨S600000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) : (⟨S100000x128, .f32⟩ : BufTy).Contents (Elt F) :=
  addf (val_main_v83 (F := F) x0 x1 x2 x4 x5 x6) (val_main_v85 (F := F) x7)
def val_main_call3_cst : (⟨S_, .f32⟩ : BufTy).Contents (Elt F) :=
  constant S_ .f32 0x00000000#32
def val_main_call3_v0 : (⟨S100000x128, .f32⟩ : BufTy).Contents (Elt F) :=
  broadcastInDim S100000x128 ![] bcast_S_S100000x128 (val_main_call3_cst (F := F))
def val_main_v87 (x0 : (⟨S100000x128, .f32⟩ : BufTy).Contents (Elt F)) (x1 x2 : (⟨S600000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) : (⟨S100000x128, .f32⟩ : BufTy).Contents (Elt F) :=
  maximumf (val_main_v86 (F := F) x0 x1 x2 x4 x5 x6 x7) (val_main_call3_v0 (F := F))
def val_main_cst_20 : (⟨S_, .f32⟩ : BufTy).Contents (Elt F) :=
  constant S_ .f32 0x3F800000#32
def val_main_v88 : (⟨S100000, .f32⟩ : BufTy).Contents (Elt F) :=
  broadcastInDim S100000 ![] bcast_S_S100000 (val_main_cst_20 (F := F))
def val_main_cst_21 : (⟨S_, .f32⟩ : BufTy).Contents (Elt F) :=
  constant S_ .f32 0x00000000#32
def val_main_v89 : (⟨S512, .f32⟩ : BufTy).Contents (Elt F) :=
  broadcastInDim S512 ![] bcast_S_S512 (val_main_cst_21 (F := F))
def val_main_v90 (x3 : (⟨S100000, .i32⟩ : BufTy).Contents (Elt F)) : (⟨S100000x1, .i32⟩ : BufTy).Contents (Elt F) :=
  broadcastInDim S100000x1 ![0] bcast_S100000_S100000x1_0 (x3)
def val_main_v91 (x3 : (⟨S100000, .i32⟩ : BufTy).Contents (Elt F)) : (⟨S512, .f32⟩ : BufTy).Contents (Elt F) :=
  Host.scatterAdd scatter_S512_S100000x1_S100000_n_0_0_1 (val_main_v89 (F := F)) (val_main_v90 (F := F) x3) (val_main_v88 (F := F))

def val_main_cst_22 : (⟨S_, .f32⟩ : BufTy).Contents (Elt F) :=
  constant S_ .f32 0x00000000#32
def val_main_v92 : (⟨S512x128, .f32⟩ : BufTy).Contents (Elt F) :=
  broadcastInDim S512x128 ![] bcast_S_S512x128 (val_main_cst_22 (F := F))
def val_main_v93 (x3 : (⟨S100000, .i32⟩ : BufTy).Contents (Elt F)) : (⟨S100000x1, .i32⟩ : BufTy).Contents (Elt F) :=
  broadcastInDim S100000x1 ![0] bcast_S100000_S100000x1_0 (x3)
def val_main_v94 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) : (⟨S512x128, .f32⟩ : BufTy).Contents (Elt F) :=
  Host.scatterAdd scatter_S512x128_S100000x1_S100000x128_1_0_0_1 (val_main_v92 (F := F)) (val_main_v93 (F := F) x3) (val_main_v87 (F := F) x0 x1 x2 x4 x5 x6 x7)

def val_main_cst_23 : (⟨S_, .f32⟩ : BufTy).Contents (Elt F) :=
  constant S_ .f32 0x3F800000#32
def val_main_v95 : (⟨S512, .f32⟩ : BufTy).Contents (Elt F) :=
  broadcastInDim S512 ![] bcast_S_S512 (val_main_cst_23 (F := F))
def val_main_v96 (x3 : (⟨S100000, .i32⟩ : BufTy).Contents (Elt F)) : (⟨S512, .f32⟩ : BufTy).Contents (Elt F) :=
  maximumf (val_main_v91 (F := F) x3) (val_main_v95 (F := F))
def val_main_v97 (x3 : (⟨S100000, .i32⟩ : BufTy).Contents (Elt F)) : (⟨S512x1, .f32⟩ : BufTy).Contents (Elt F) :=
  broadcastInDim S512x1 ![0] bcast_S512_S512x1_0 (val_main_v96 (F := F) x3)
def val_main_v98 (x3 : (⟨S100000, .i32⟩ : BufTy).Contents (Elt F)) : (⟨S512x128, .f32⟩ : BufTy).Contents (Elt F) :=
  broadcastInDim S512x128 ![0, 1] bcast_S512x1_S512x128_0_1 (val_main_v97 (F := F) x3)
def val_main_v99 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) : (⟨S512x128, .f32⟩ : BufTy).Contents (Elt F) :=
  Host.divf (val_main_v94 (F := F) x0 x1 x2 x3 x4 x5 x6 x7) (val_main_v98 (F := F) x3)
def val_main_v100 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) : (⟨S512x512, .f32⟩ : BufTy).Contents (Elt F) :=
  Host.dotGeneral dot_S512x128_S128x512_S512x512_1_0_0_1_n_n none (val_main_v99 (F := F) x0 x1 x2 x3 x4 x5 x6 x7) (x8)
def val_main_v101 (x9 : (⟨S512, .f32⟩ : BufTy).Contents (Elt F)) : (⟨S1x512, .f32⟩ : BufTy).Contents (Elt F) :=
  broadcastInDim S1x512 ![1] bcast_S512_S1x512_1 (x9)
def val_main_v102 (x9 : (⟨S512, .f32⟩ : BufTy).Contents (Elt F)) : (⟨S512x512, .f32⟩ : BufTy).Contents (Elt F) :=
  broadcastInDim S512x512 ![0, 1] bcast_S1x512_S512x512_0_1 (val_main_v101 (F := F) x9)
def val_main_v103 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) : (⟨S512x512, .f32⟩ : BufTy).Contents (Elt F) :=
  addf (val_main_v100 (F := F) x0 x1 x2 x3 x4 x5 x6 x7 x8) (val_main_v102 (F := F) x9)
def val_main_v104 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) (x10 : (⟨S512x256, .f32⟩ : BufTy).Contents (Elt F)) : (⟨S512x256, .f32⟩ : BufTy).Contents (Elt F) :=
  Host.dotGeneral dot_S512x512_S512x256_S512x256_1_0_0_1_n_n none (val_main_v103 (F := F) x0 x1 x2 x3 x4 x5 x6 x7 x8 x9) (x10)
def val_main_v105 (x11 : (⟨S256, .f32⟩ : BufTy).Contents (Elt F)) : (⟨S1x256, .f32⟩ : BufTy).Contents (Elt F) :=
  broadcastInDim S1x256 ![1] bcast_S256_S1x256_1 (x11)
def val_main_v106 (x11 : (⟨S256, .f32⟩ : BufTy).Contents (Elt F)) : (⟨S512x256, .f32⟩ : BufTy).Contents (Elt F) :=
  broadcastInDim S512x256 ![0, 1] bcast_S1x256_S512x256_0_1 (val_main_v105 (F := F) x11)
def val_main_v107 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) (x10 : (⟨S512x256, .f32⟩ : BufTy).Contents (Elt F)) (x11 : (⟨S256, .f32⟩ : BufTy).Contents (Elt F)) : (⟨S512x256, .f32⟩ : BufTy).Contents (Elt F) :=
  addf (val_main_v104 (F := F) x0 x1 x2 x3 x4 x5 x6 x7 x8 x9 x10) (val_main_v106 (F := F) x11)
def val_main_call4_cst : (⟨S_, .f32⟩ : BufTy).Contents (Elt F) :=
  constant S_ .f32 0x00000000#32
def val_main_call4_v0 : (⟨S512x256, .f32⟩ : BufTy).Contents (Elt F) :=
  broadcastInDim S512x256 ![] bcast_S_S512x256 (val_main_call4_cst (F := F))
def val_main_v108 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) (x10 : (⟨S512x256, .f32⟩ : BufTy).Contents (Elt F)) (x11 : (⟨S256, .f32⟩ : BufTy).Contents (Elt F)) : (⟨S512x256, .f32⟩ : BufTy).Contents (Elt F) :=
  maximumf (val_main_v107 (F := F) x0 x1 x2 x3 x4 x5 x6 x7 x8 x9 x10 x11) (val_main_call4_v0 (F := F))
def val_main_v109 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) (x10 : (⟨S512x256, .f32⟩ : BufTy).Contents (Elt F)) (x11 : (⟨S256, .f32⟩ : BufTy).Contents (Elt F)) (x12 : (⟨S256x128, .f32⟩ : BufTy).Contents (Elt F)) : (⟨S512x128, .f32⟩ : BufTy).Contents (Elt F) :=
  Host.dotGeneral dot_S512x256_S256x128_S512x128_1_0_0_1_n_n none (val_main_v108 (F := F) x0 x1 x2 x3 x4 x5 x6 x7 x8 x9 x10 x11) (x12)
def val_main_v110 (x13 : (⟨S128, .f32⟩ : BufTy).Contents (Elt F)) : (⟨S1x128, .f32⟩ : BufTy).Contents (Elt F) :=
  broadcastInDim S1x128 ![1] bcast_S128_S1x128_1 (x13)
def val_main_v111 (x13 : (⟨S128, .f32⟩ : BufTy).Contents (Elt F)) : (⟨S512x128, .f32⟩ : BufTy).Contents (Elt F) :=
  broadcastInDim S512x128 ![0, 1] bcast_S1x128_S512x128_0_1 (val_main_v110 (F := F) x13)
def val_main_v112 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) (x10 : (⟨S512x256, .f32⟩ : BufTy).Contents (Elt F)) (x11 : (⟨S256, .f32⟩ : BufTy).Contents (Elt F)) (x12 : (⟨S256x128, .f32⟩ : BufTy).Contents (Elt F)) (x13 : (⟨S128, .f32⟩ : BufTy).Contents (Elt F)) : (⟨S512x128, .f32⟩ : BufTy).Contents (Elt F) :=
  addf (val_main_v109 (F := F) x0 x1 x2 x3 x4 x5 x6 x7 x8 x9 x10 x11 x12) (val_main_v111 (F := F) x13)
def val_main_call5_cst : (⟨S_, .f32⟩ : BufTy).Contents (Elt F) :=
  constant S_ .f32 0x00000000#32
def val_main_call5_v0 : (⟨S512x128, .f32⟩ : BufTy).Contents (Elt F) :=
  broadcastInDim S512x128 ![] bcast_S_S512x128 (val_main_call5_cst (F := F))
def val_main_v113 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) (x10 : (⟨S512x256, .f32⟩ : BufTy).Contents (Elt F)) (x11 : (⟨S256, .f32⟩ : BufTy).Contents (Elt F)) (x12 : (⟨S256x128, .f32⟩ : BufTy).Contents (Elt F)) (x13 : (⟨S128, .f32⟩ : BufTy).Contents (Elt F)) : (⟨S512x128, .f32⟩ : BufTy).Contents (Elt F) :=
  maximumf (val_main_v112 (F := F) x0 x1 x2 x3 x4 x5 x6 x7 x8 x9 x10 x11 x12 x13) (val_main_call5_v0 (F := F))
def val_main_v114 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) (x10 : (⟨S512x256, .f32⟩ : BufTy).Contents (Elt F)) (x11 : (⟨S256, .f32⟩ : BufTy).Contents (Elt F)) (x12 : (⟨S256x128, .f32⟩ : BufTy).Contents (Elt F)) (x13 : (⟨S128, .f32⟩ : BufTy).Contents (Elt F)) (x14 : (⟨S128x64, .f32⟩ : BufTy).Contents (Elt F)) : (⟨S512x64, .f32⟩ : BufTy).Contents (Elt F) :=
  Host.dotGeneral dot_S512x128_S128x64_S512x64_1_0_0_1_n_n none (val_main_v113 (F := F) x0 x1 x2 x3 x4 x5 x6 x7 x8 x9 x10 x11 x12 x13) (x14)
def val_main_v115 (x15 : (⟨S64, .f32⟩ : BufTy).Contents (Elt F)) : (⟨S1x64, .f32⟩ : BufTy).Contents (Elt F) :=
  broadcastInDim S1x64 ![1] bcast_S64_S1x64_1 (x15)
def val_main_v116 (x15 : (⟨S64, .f32⟩ : BufTy).Contents (Elt F)) : (⟨S512x64, .f32⟩ : BufTy).Contents (Elt F) :=
  broadcastInDim S512x64 ![0, 1] bcast_S1x64_S512x64_0_1 (val_main_v115 (F := F) x15)
def val_main_v117 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) (x10 : (⟨S512x256, .f32⟩ : BufTy).Contents (Elt F)) (x11 : (⟨S256, .f32⟩ : BufTy).Contents (Elt F)) (x12 : (⟨S256x128, .f32⟩ : BufTy).Contents (Elt F)) (x13 : (⟨S128, .f32⟩ : BufTy).Contents (Elt F)) (x14 : (⟨S128x64, .f32⟩ : BufTy).Contents (Elt F)) (x15 : (⟨S64, .f32⟩ : BufTy).Contents (Elt F)) : (⟨S512x64, .f32⟩ : BufTy).Contents (Elt F) :=
  addf (val_main_v114 (F := F) x0 x1 x2 x3 x4 x5 x6 x7 x8 x9 x10 x11 x12 x13 x14) (val_main_v116 (F := F) x15)
def val_main_call6_cst : (⟨S_, .f32⟩ : BufTy).Contents (Elt F) :=
  constant S_ .f32 0x00000000#32
def val_main_call6_v0 : (⟨S512x64, .f32⟩ : BufTy).Contents (Elt F) :=
  broadcastInDim S512x64 ![] bcast_S_S512x64 (val_main_call6_cst (F := F))
def val_main_v118 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) (x10 : (⟨S512x256, .f32⟩ : BufTy).Contents (Elt F)) (x11 : (⟨S256, .f32⟩ : BufTy).Contents (Elt F)) (x12 : (⟨S256x128, .f32⟩ : BufTy).Contents (Elt F)) (x13 : (⟨S128, .f32⟩ : BufTy).Contents (Elt F)) (x14 : (⟨S128x64, .f32⟩ : BufTy).Contents (Elt F)) (x15 : (⟨S64, .f32⟩ : BufTy).Contents (Elt F)) : (⟨S512x64, .f32⟩ : BufTy).Contents (Elt F) :=
  maximumf (val_main_v117 (F := F) x0 x1 x2 x3 x4 x5 x6 x7 x8 x9 x10 x11 x12 x13 x14 x15) (val_main_call6_v0 (F := F))
def val_main_v119 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) (x10 : (⟨S512x256, .f32⟩ : BufTy).Contents (Elt F)) (x11 : (⟨S256, .f32⟩ : BufTy).Contents (Elt F)) (x12 : (⟨S256x128, .f32⟩ : BufTy).Contents (Elt F)) (x13 : (⟨S128, .f32⟩ : BufTy).Contents (Elt F)) (x14 : (⟨S128x64, .f32⟩ : BufTy).Contents (Elt F)) (x15 : (⟨S64, .f32⟩ : BufTy).Contents (Elt F)) (x16 : (⟨S64x1, .f32⟩ : BufTy).Contents (Elt F)) : (⟨S512x1, .f32⟩ : BufTy).Contents (Elt F) :=
  Host.dotGeneral dot_S512x64_S64x1_S512x1_1_0_0_1_n_n none (val_main_v118 (F := F) x0 x1 x2 x3 x4 x5 x6 x7 x8 x9 x10 x11 x12 x13 x14 x15) (x16)
def val_main_v120 (x17 : (⟨S1, .f32⟩ : BufTy).Contents (Elt F)) : (⟨S1x1, .f32⟩ : BufTy).Contents (Elt F) :=
  broadcastInDim S1x1 ![1] bcast_S1_S1x1_1 (x17)
def val_main_v121 (x17 : (⟨S1, .f32⟩ : BufTy).Contents (Elt F)) : (⟨S512x1, .f32⟩ : BufTy).Contents (Elt F) :=
  broadcastInDim S512x1 ![0, 1] bcast_S1x1_S512x1_0_1 (val_main_v120 (F := F) x17)
def val_main_v122 (x0 : (⟨S100000x128, .f32⟩ : BufTy).Contents (Elt F)) (x1 x2 : (⟨S600000, .i32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F)) (x10 : (⟨S512x256, .f32⟩ : BufTy).Contents (Elt F)) (x11 : (⟨S256, .f32⟩ : BufTy).Contents (Elt F)) (x12 : (⟨S256x128, .f32⟩ : BufTy).Contents (Elt F)) (x13 : (⟨S128, .f32⟩ : BufTy).Contents (Elt F)) (x14 : (⟨S128x64, .f32⟩ : BufTy).Contents (Elt F)) (x15 : (⟨S64, .f32⟩ : BufTy).Contents (Elt F)) (x16 : (⟨S64x1, .f32⟩ : BufTy).Contents (Elt F)) (x17 : (⟨S1, .f32⟩ : BufTy).Contents (Elt F)) : (⟨S512x1, .f32⟩ : BufTy).Contents (Elt F) :=
  addf (val_main_v119 (F := F) x0 x1 x2 x3 x4 x5 x6 x7 x8 x9 x10 x11 x12 x13 x14 x15 x16) (val_main_v121 (F := F) x17)
theorem val_main_v122_eq (m : (ℓ : Loc nD τ sig) → Buf (Elt F) ℓ) (c : Dev nD) :
    Cert.ReferenceIdeal.Value.res_main_v122 m c = val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold Cert.ReferenceIdeal.Value.res_main_v122; rfl

end Cert.ReferenceIdeal.Read

end
-- ==== Proof.Ref.Imports.lean ====
import proofs.«422229_j59227599011891_1_alg».proof.Proof.Ref.ReadP
-- ==== Proof.KI.HostBridge.lean ====
import proofs.«422229_j59227599011891_1_alg».proof.Proof.KI.HostRead
import proofs.«422229_j59227599011891_1_alg».proof.Proof.Ref.Imports
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

open Cert.ReferenceIdeal.Read Cert.ReferenceIdeal.Spec

theorem bcast_row_eq_relaid {n : Nat} {e : EltTy} (hs : (⟨1, ![n]⟩ : Shape).ShapeCasts ⟨2, ![1, n]⟩)
    (hb : (⟨1, ![n]⟩ : Shape).BroadcastsInDim ⟨2, ![1, n]⟩ ![1]) (x : (⟨⟨1, ![n]⟩, e⟩ : BufTy).Contents (Elt F)) :
    broadcastInDim ⟨2, ![1, n]⟩ ![1] hb x = relaid hs x := by
  funext i
  have h0 : (i 0).val = 0 := by
    have h : (i 0).val < 1 := (i 0).isLt
    omega
  have h1 : (i 1).val < n := (i 1).isLt
  let k : (⟨1, ![n]⟩ : Shape).Idx := fun a => match a with | ⟨0, _⟩ => ⟨(i 1).val, h1⟩
  refine (broadcastInDim_apply ![1] hb x i k (fun a => match a with
    | ⟨0, _⟩ => by
      show (i 1).val = if n = 1 then 0 else (i 1).val
      split_ifs with hn
      · omega
      · rfl)).trans ?_
  refine (shapeCast_apply x hs i k ?_).symm
  rw [Shape.rowMajor_val_one, Shape.rowMajor_val_two]
  show (i 1).val = (i 0).val * n + (i 1).val
  rw [h0]; omega

theorem bcast_col_eq_relaid {n : Nat} {e : EltTy} (hs : (⟨1, ![n]⟩ : Shape).ShapeCasts ⟨2, ![n, 1]⟩)
    (hb : (⟨1, ![n]⟩ : Shape).BroadcastsInDim ⟨2, ![n, 1]⟩ ![0]) (x : (⟨⟨1, ![n]⟩, e⟩ : BufTy).Contents (Elt F)) :
    broadcastInDim ⟨2, ![n, 1]⟩ ![0] hb x = relaid hs x := by
  funext i
  have h0 : (i 0).val < n := (i 0).isLt
  have h1 : (i 1).val = 0 := by
    have h : (i 1).val < 1 := (i 1).isLt
    omega
  let k : (⟨1, ![n]⟩ : Shape).Idx := fun a => match a with | ⟨0, _⟩ => ⟨(i 0).val, h0⟩
  refine (broadcastInDim_apply ![0] hb x i k (fun a => match a with
    | ⟨0, _⟩ => by
      show (i 0).val = if n = 1 then 0 else (i 0).val
      split_ifs with hn
      · omega
      · rfl)).trans ?_
  refine (shapeCast_apply x hs i k ?_).symm
  rw [Shape.rowMajor_val_one, Shape.rowMajor_val_two]
  show (i 0).val = (i 0).val * 1 + (i 1).val
  rw [h1]; omega

section Whole
variable (x0 : FA (F := F) S100000x128) (x1 x2 : IA (F := F) S600000) (x3 : IA (F := F) S100000) (x4 : FA (F := F) S128x64)
  (x5 : FA (F := F) S64) (x6 : FA (F := F) S64x128) (x7 : FA (F := F) S128) (x8 : FA (F := F) S128x512) (x9 : FA (F := F) S512)
  (x10 : FA (F := F) S512x256) (x11 : FA (F := F) S256) (x12 : FA (F := F) S256x128) (x13 : FA (F := F) S128)
  (x14 : FA (F := F) S128x64) (x15 : FA (F := F) S64) (x16 : FA (F := F) S64x1) (x17 : FA (F := F) S1)

def layer1 : FA (F := F) S100000x64 :=
  br1 (agg64 (lin0 x0 x4) (withLoops x1) (withLoops x2) (edgeCoef (withLoops x1) (withLoops x2))) (relaid shapeCasts_S64_S1x64 x5)

def layer2 : FA (F := F) S100000x128 :=
  br3 (agg128 (lin2 (layer1 x0 x1 x2 x4 x5) x6) (withLoops x1) (withLoops x2) (edgeCoef (withLoops x1) (withLoops x2)))
    (relaid shapeCasts_S128_S1x128 x7)

def pooled : FA (F := F) S512x128 :=
  meanOf (pool4 (layer2 x0 x1 x2 x4 x5 x6 x7) (relaid shapeCasts_S100000_S100000x1 x3)) x3

def whole : FA (F := F) S512x1 :=
  mlp5 (pooled x0 x1 x2 x3 x4 x5 x6 x7) x8 (relaid shapeCasts_S512_S1x512 x9) x10 (relaid shapeCasts_S256_S1x256 x11)
    x12 (relaid shapeCasts_S128_S1x128 x13) x14 (relaid shapeCasts_S64_S1x64 x15) x16 (relaid shapeCasts_S1_S1x1 x17)

end Whole

section Reference
variable (x0 : FA (F := F) S100000x128) (x1 x2 : IA (F := F) S600000) (x3 : IA (F := F) S100000) (x4 : FA (F := F) S128x64)
  (x5 : FA (F := F) S64) (x6 : FA (F := F) S64x128) (x7 : FA (F := F) S128) (x8 : FA (F := F) S128x512) (x9 : FA (F := F) S512)
  (x10 : FA (F := F) S512x256) (x11 : FA (F := F) S256) (x12 : FA (F := F) S256x128) (x13 : FA (F := F) S128)
  (x14 : FA (F := F) S128x64) (x15 : FA (F := F) S64) (x16 : FA (F := F) S64x1) (x17 : FA (F := F) S1)

theorem ref_rows : val_main_v1 x1 = withLoops x1 := rfl
theorem ref_cols : val_main_v2 x2 = withLoops x2 := rfl
theorem ref_rows' : val_main_v45 x1 = withLoops x1 := rfl
theorem ref_cols' : val_main_v46 x2 = withLoops x2 := rfl

theorem ref_degree : val_main_v6 x2 = degree (withLoops x2) := by
  unfold val_main_v6 val_main_v5 val_main_v4 val_main_v3 val_main_cst val_main_cst_0
  rw [ref_cols] <;> rfl
theorem ref_degree' : val_main_v50 x2 = degree (withLoops x2) := by
  unfold val_main_v50 val_main_v49 val_main_v48 val_main_v47 val_main_cst_9 val_main_cst_10
  rw [ref_cols'] <;> rfl

theorem ref_invSqrtDeg : val_main_v10 x2 = invSqrtDeg (withLoops x2) := by
  unfold val_main_v10 val_main_v8 val_main_v9 val_main_v7 val_main_cst_1 val_main_call0_v1 val_main_call0_v0 val_main_cst_2
  rw [ref_degree] <;> rfl
theorem ref_invSqrtDeg' : val_main_v54 x2 = invSqrtDeg (withLoops x2) := by
  unfold val_main_v54 val_main_v52 val_main_v53 val_main_v51 val_main_cst_11 val_main_call2_v1 val_main_call2_v0 val_main_cst_12
  rw [ref_degree'] <;> rfl

theorem ref_wrap_row : val_main_v17 x1 = wrapCol (withLoops x1) := by
  unfold val_main_v17 val_main_v16 val_main_v15 val_main_v13 val_main_v14 val_main_v12 val_main_c val_main_c_3
  rw [ref_rows] <;> rfl
theorem ref_wrap_col : val_main_v24 x2 = wrapCol (withLoops x2) := by
  unfold val_main_v24 val_main_v23 val_main_v22 val_main_v20 val_main_v21 val_main_v19 val_main_c_4 val_main_c_5
  rw [ref_cols] <;> rfl
theorem ref_wrap_row1 : val_main_v33 x1 = wrapCol (withLoops x1) := by
  unfold val_main_v33 val_main_v32 val_main_v31 val_main_v29 val_main_v30 val_main_v28 val_main_c_6 val_main_c_7
  rw [ref_rows] <;> rfl
theorem ref_wrap_row' : val_main_v61 x1 = wrapCol (withLoops x1) := by
  unfold val_main_v61 val_main_v60 val_main_v59 val_main_v57 val_main_v58 val_main_v56 val_main_c_13 val_main_c_14
  rw [ref_rows'] <;> rfl
theorem ref_wrap_col' : val_main_v68 x2 = wrapCol (withLoops x2) := by
  unfold val_main_v68 val_main_v67 val_main_v66 val_main_v64 val_main_v65 val_main_v63 val_main_c_15 val_main_c_16
  rw [ref_cols'] <;> rfl
theorem ref_wrap_row2 : val_main_v77 x1 = wrapCol (withLoops x1) := by
  unfold val_main_v77 val_main_v76 val_main_v75 val_main_v73 val_main_v74 val_main_v72 val_main_c_17 val_main_c_18
  rw [ref_rows'] <;> rfl

theorem ref_coef : val_main_v26 x1 x2 = edgeCoef (withLoops x1) (withLoops x2) := by
  unfold val_main_v26 val_main_v18 val_main_v25
  rw [ref_invSqrtDeg, ref_wrap_row, ref_wrap_col] <;> rfl
theorem ref_coef' : val_main_v70 x1 x2 = edgeCoef (withLoops x1) (withLoops x2) := by
  unfold val_main_v70 val_main_v62 val_main_v69
  rw [ref_invSqrtDeg', ref_wrap_row', ref_wrap_col'] <;> rfl

theorem ref_row64 : val_main_v40 x5 = relaid shapeCasts_S64_S1x64 x5 := by
  unfold val_main_v40; exact bcast_row_eq_relaid _ _ x5
theorem ref_row128 : val_main_v84 x7 = relaid shapeCasts_S128_S1x128 x7 := by
  unfold val_main_v84; exact bcast_row_eq_relaid _ _ x7
theorem ref_col_ids : val_main_v93 x3 = relaid shapeCasts_S100000_S100000x1 x3 := by
  unfold val_main_v93; exact bcast_col_eq_relaid _ _ x3
theorem ref_row512 : val_main_v101 x9 = relaid shapeCasts_S512_S1x512 x9 := by
  unfold val_main_v101; exact bcast_row_eq_relaid _ _ x9
theorem ref_row256 : val_main_v105 x11 = relaid shapeCasts_S256_S1x256 x11 := by
  unfold val_main_v105; exact bcast_row_eq_relaid _ _ x11
theorem ref_row128' : val_main_v110 x13 = relaid shapeCasts_S128_S1x128 x13 := by
  unfold val_main_v110; exact bcast_row_eq_relaid _ _ x13
theorem ref_row64' : val_main_v115 x15 = relaid shapeCasts_S64_S1x64 x15 := by
  unfold val_main_v115; exact bcast_row_eq_relaid _ _ x15
theorem ref_row1 : val_main_v120 x17 = relaid shapeCasts_S1_S1x1 x17 := by
  unfold val_main_v120; exact bcast_row_eq_relaid _ _ x17

theorem ref_agg1 : val_main_v39 x0 x1 x2 x4
    = agg64 (lin0 x0 x4) (withLoops x1) (withLoops x2) (edgeCoef (withLoops x1) (withLoops x2)) := by
  unfold val_main_v39 val_main_v37 val_main_cst_8 val_main_v38 val_main_v36 val_main_v34 val_main_v35 val_main_v27 val_main_v11
  rw [ref_cols, ref_wrap_row1, ref_coef] <;> rfl
theorem ref_layer1 : val_main_v43 x0 x1 x2 x4 x5 = layer1 x0 x1 x2 x4 x5 := by
  unfold val_main_v43 val_main_v42 val_main_v41 val_main_call1_v0 val_main_call1_cst
  rw [ref_agg1, ref_row64] <;> rfl

theorem ref_agg2 : val_main_v83 x0 x1 x2 x4 x5 x6
    = agg128 (lin2 (layer1 x0 x1 x2 x4 x5) x6) (withLoops x1) (withLoops x2) (edgeCoef (withLoops x1) (withLoops x2)) := by
  unfold val_main_v83 val_main_v81 val_main_cst_19 val_main_v82 val_main_v80 val_main_v78 val_main_v79 val_main_v71 val_main_v55
  rw [ref_cols', ref_wrap_row2, ref_coef', ref_layer1] <;> rfl
theorem ref_layer2 : val_main_v87 x0 x1 x2 x4 x5 x6 x7 = layer2 x0 x1 x2 x4 x5 x6 x7 := by
  unfold val_main_v87 val_main_v86 val_main_v85 val_main_call3_v0 val_main_call3_cst
  rw [ref_agg2, ref_row128] <;> rfl

theorem ref_pooled : val_main_v99 x0 x1 x2 x3 x4 x5 x6 x7 = pooled x0 x1 x2 x3 x4 x5 x6 x7 := by
  unfold val_main_v99 val_main_v98 val_main_v97 val_main_v96 val_main_v95 val_main_cst_23 val_main_v91 val_main_v89 val_main_cst_21
    val_main_v90 val_main_v88 val_main_cst_20 val_main_v94 val_main_v92 val_main_cst_22
  rw [ref_layer2, ref_col_ids] <;> rfl

-- The reference's result, stage by stage, is the same composition of the six region operations and the host steps between them.
theorem ref_whole : val_main_v122 x0 x1 x2 x3 x4 x5 x6 x7 x8 x9 x10 x11 x12 x13 x14 x15 x16 x17
    = whole x0 x1 x2 x3 x4 x5 x6 x7 x8 x9 x10 x11 x12 x13 x14 x15 x16 x17 := by
  unfold val_main_v122 val_main_v121 val_main_v119 val_main_v118 val_main_call6_v0 val_main_call6_cst val_main_v117 val_main_v116
    val_main_v114 val_main_v113 val_main_call5_v0 val_main_call5_cst val_main_v112 val_main_v111 val_main_v109 val_main_v108
    val_main_call4_v0 val_main_call4_cst val_main_v107 val_main_v106 val_main_v104 val_main_v103 val_main_v102 val_main_v100
  rw [ref_pooled, ref_row512, ref_row256, ref_row128', ref_row64', ref_row1] <;> rfl

end Reference

-- Each region leaves the reference's operation of what it reads, so the kernel program's result array is the reference's result term.
theorem kernel_value (m : (ℓ : Loc nD τ sig) → Buf (Elt Ideal) ℓ) (outs : Outs (F := Ideal)) (c : Dev nD)
    (m' : (ℓ : Loc Cert.ReferenceIdeal.nD Cert.ReferenceIdeal.τ Cert.ReferenceIdeal.sig) → Buf (Elt Ideal) ℓ)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h4 : outs 4 main_v26 c = Cert.ReferenceIdeal.Spec.lin0 (F := Ideal) (V3 m c main_arg0) (V3 m c main_arg4))
    (h6 : outs 6 main_v41 c = Cert.ReferenceIdeal.Spec.br1 (F := Ideal) (V5 m outs c main_v39) (V5 m outs c main_v40))
    (h7 : outs 7 main_v42 c = Cert.ReferenceIdeal.Spec.lin2 (F := Ideal) (V6 m outs c main_v41) (V6 m outs c main_arg6))
    (h9 : outs 9 main_v57 c = Cert.ReferenceIdeal.Spec.br3 (F := Ideal) (V8 m outs c main_v55) (V8 m outs c main_v56))
    (h11 : outs 11 main_v59 c = Cert.ReferenceIdeal.Spec.pool4 (F := Ideal) (V10 m outs c main_v57) (V10 m outs c main_v58))
    (h13 : outs 13 main_v74 c = Cert.ReferenceIdeal.Spec.mlp5 (F := Ideal) (V12 m outs c main_v68) (V12 m outs c main_arg8) (V12 m outs c main_v69) (V12 m outs c main_arg10) (V12 m outs c main_v70) (V12 m outs c main_arg12) (V12 m outs c main_v71) (V12 m outs c main_arg14) (V12 m outs c main_v72) (V12 m outs c main_arg16) (V12 m outs c main_v73)) :
    outs 13 main_v74 c = Cert.ReferenceIdeal.Value.res_main_v122 (F := Ideal) m' c := by
  obtain ⟨a0, a1, a2, a3, a4, a5, a6, a7, a8, a9, a10, a11, a12, a13, a14, a15, a16, a17⟩ := hag
  rw [Cert.ReferenceIdeal.Read.val_main_v122_eq m' c, ref_whole]
  unfold whole pooled layer2 layer1
  rw [h13, read5_g m outs c, read5_wf m outs c, read5_bf m outs c, read5_wh0 m outs c, read5_bh0 m outs c, read5_wh1 m outs c,
    read5_bh1 m outs c, read5_wh2 m outs c, read5_bh2 m outs c, read5_wo m outs c, read5_bo m outs c,
    h11, read4_h m outs c, read4_ids m outs c, h9, read3_pre m outs c, read3_b m outs c, h7, read2_h m outs c, read2_w m outs c,
    h6, read1_pre m outs c, read1_b m outs c, h4, read0_x m c, read0_w m c,
    a0, a1, a2, a3, a4, a5, a6, a7, a8, a9, a10, a11, a12, a13, a14, a15, a16, a17]
  rfl

end Cert.KernelIdeal.Frm

end
-- ==== Proof.KI.Value.lean ====
import proofs.«422229_j59227599011891_1_alg».proof.Proof.KI.Run
import proofs.«422229_j59227599011891_1_alg».proof.Proof.KI.V0
import proofs.«422229_j59227599011891_1_alg».proof.Proof.KI.V1
import proofs.«422229_j59227599011891_1_alg».proof.Proof.KI.V2
import proofs.«422229_j59227599011891_1_alg».proof.Proof.KI.V3
import proofs.«422229_j59227599011891_1_alg».proof.Proof.KI.V4
import proofs.«422229_j59227599011891_1_alg».proof.Proof.KI.V5
import proofs.«422229_j59227599011891_1_alg».proof.Proof.KI.HostBridge

set_option maxRecDepth 16384

noncomputable section

namespace Cert.KernelIdeal.Frm

open Cert.KernelIdeal Cert.KernelIdeal.Gen
open Idealize.ShloMosaic Idealize.ShloMosaic.TcCoe Idealize.SL.Sem

variable (m : (ℓ : Loc nD τ sig) → Buf (Elt Ideal) ℓ)

theorem leaves0 (c : Dev nD) : outs m 4 main_v26 c = Cert.ReferenceIdeal.Spec.lin0 (F := Ideal) (V3 m c main_arg0) (V3 m c main_arg4) :=
  (W4_self m c).trans (final0 (asV (W3 m)) c)
theorem leaves1 (c : Dev nD) : outs m 6 main_v41 c = Cert.ReferenceIdeal.Spec.br1 (F := Ideal) (V5 m (outs m) c main_v39) (V5 m (outs m) c main_v40) := by
  rw [V5_eq m c]; exact (W6_self m c).trans (final1 (asV (W5 m)) c)
theorem leaves2 (c : Dev nD) : outs m 7 main_v42 c = Cert.ReferenceIdeal.Spec.lin2 (F := Ideal) (V6 m (outs m) c main_v41) (V6 m (outs m) c main_arg6) := by
  rw [V6_eq m c]; exact (W7_self m c).trans (final2 (asV (W6 m)) c)
theorem leaves3 (c : Dev nD) : outs m 9 main_v57 c = Cert.ReferenceIdeal.Spec.br3 (F := Ideal) (V8 m (outs m) c main_v55) (V8 m (outs m) c main_v56) := by
  rw [V8_eq m c]; exact (W9_self m c).trans (final3 (asV (W8 m)) c)
theorem leaves4 (c : Dev nD) : outs m 11 main_v59 c = Cert.ReferenceIdeal.Spec.pool4 (F := Ideal) (V10 m (outs m) c main_v57) (V10 m (outs m) c main_v58) := by
  rw [V10_eq m c]; exact (W11_self m c).trans (final4 (asV (W10 m)) c)
theorem leaves5 (c : Dev nD) : outs m 13 main_v74 c = Cert.ReferenceIdeal.Spec.mlp5 (F := Ideal) (V12 m (outs m) c main_v68) (V12 m (outs m) c main_arg8) (V12 m (outs m) c main_v69) (V12 m (outs m) c main_arg10) (V12 m (outs m) c main_v70) (V12 m (outs m) c main_arg12) (V12 m (outs m) c main_v71) (V12 m (outs m) c main_arg14) (V12 m (outs m) c main_v72) (V12 m (outs m) c main_arg16) (V12 m (outs m) c main_v73) := by
  rw [V12_eq m c]; exact (W13_self m c).trans (final5 (asV (W12 m)) c)

end Cert.KernelIdeal.Frm

end
-- ==== Proof.lean ====
import proofs.«422229_j59227599011891_1_alg».proof.Defs
import proofs.«422229_j59227599011891_1_alg».proof.Proof.K.Run
import proofs.«422229_j59227599011891_1_alg».proof.Proof.KI.Value
import proofs.«422229_j59227599011891_1_alg».proof.Proof.Ref.Imports
import proofs.«422229_j59227599011891_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem Cert.KernelIdeal.Frm

-- A frame is a run with the statement about the result dropped.
theorem frame_k : Cert.frame_Kernel := fun m ρ _ =>
  (θ_run Cert.Kernel.defs _ _).mono (fun _ h c => (h c).2) (Cert.Kernel.Frm.run_val m ρ)
theorem frame_ki : Cert.frame_KernelIdeal := fun m ρ _ =>
  (θ_run Cert.KernelIdeal.defs _ _).mono (fun _ h c => (h c).2) (Cert.KernelIdeal.Frm.run_val m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- Both idealized programs end at one and the same result term of the arguments.
theorem algebraic : Cert.algebraic_KernelIdeal_ReferenceIdeal := by
  intro m ρ m' ρ' _ hagree
  refine ⟨fun c => Cert.KernelIdeal.Frm.W13 m c Cert.KernelIdeal.main_v74, Cert.KernelIdeal.Frm.run_val m ρ, ?_⟩
  refine (θ_run Cert.ReferenceIdeal.defs _ _).mono (fun _ h c => ⟨(h c).1.trans ?_, (h c).2⟩)
    (Cert.ReferenceIdeal.Value.run (F := Ideal) m' ρ')
  exact (kernel_value m _ c m' (hagree c) (leaves0 m c) (leaves1 m c) (leaves2 m c) (leaves3 m c) (leaves4 m c) (leaves5 m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
